-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg6 : FVec F S384 .f32) (main_arg7 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg6
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg7
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S4x128x128 .f32) (main_arg4 : FVec F S384x128 .f32) (main_arg5 : FVec F S384x128 .f32) (main_arg6 : FVec F S384 .f32) (main_arg7 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S1x1600000 : Shape := ⟨2, ![1, 1600000]⟩
abbrev S1600000 : Shape := ⟨1, ![1600000]⟩
abbrev S1x384 : Shape := ⟨2, ![1, 384]⟩
abbrev S1x128x128 : Shape := ⟨3, ![1, 128, 128]⟩
abbrev S128x128 : Shape := ⟨2, ![128, 128]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S2000x384 : Shape := ⟨2, ![2000, 384]⟩
abbrev S100000x1 : Shape := ⟨2, ![100000, 1]⟩
abbrev S64x128 : Shape := ⟨2, ![64, 128]⟩
abbrev S2000x1 : Shape := ⟨2, ![2000, 1]⟩
abbrev S2000x64 : Shape := ⟨2, ![2000, 64]⟩
abbrev S64 : Shape := ⟨1, ![64]⟩
abbrev S64x1 : Shape := ⟨2, ![64, 1]⟩

abbrev nBuf : Space → Nat
  | .hbm => 96
  | .vmem => 66
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S4x128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x384, .f32⟩
  | .hbm, ⟨13, _⟩ => ⟨S1x384, .f32⟩
  | .hbm, ⟨14, _⟩ => ⟨S1x128x128, .f32⟩
  | .hbm, ⟨15, _⟩ => ⟨S128x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S1x128x128, .f32⟩
  | .hbm, ⟨32, _⟩ => ⟨S128x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x1, .i32⟩
  | .hbm, ⟨83, _⟩ => ⟨S64x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S64, .f32⟩
  | .hbm, ⟨88, _⟩ => ⟨S100000x1, .i32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x128, .f32⟩
  | .hbm, ⟨95, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S384x128, .f32⟩
  | .local _ .vmem, ⟨10, _⟩ => ⟨S384x128, .f32⟩
  | .local _ .vmem, ⟨11, _⟩ => ⟨S1x384, .f32⟩
  | .local _ .vmem, ⟨12, _⟩ => ⟨S1x384, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S384x128, .f32⟩
  | .local _ .vmem, ⟨25, _⟩ => ⟨S384x128, .f32⟩
  | .local _ .vmem, ⟨26, _⟩ => ⟨S1x384, .f32⟩
  | .local _ .vmem, ⟨27, _⟩ => ⟨S1x384, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S384x128, .f32⟩
  | .local _ .vmem, ⟨40, _⟩ => ⟨S384x128, .f32⟩
  | .local _ .vmem, ⟨41, _⟩ => ⟨S1x384, .f32⟩
  | .local _ .vmem, ⟨42, _⟩ => ⟨S1x384, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S384x128, .f32⟩
  | .local _ .vmem, ⟨55, _⟩ => ⟨S384x128, .f32⟩
  | .local _ .vmem, ⟨56, _⟩ => ⟨S1x384, .f32⟩
  | .local _ .vmem, ⟨57, _⟩ => ⟨S1x384, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x1, .i32⟩
  | .local _ .vmem, ⟨63, _⟩ => ⟨S2000x1, .i32⟩
  | .local _ .vmem, ⟨64, _⟩ => ⟨S64x128, .f32⟩
  | .local _ .vmem, ⟨65, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S384x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S384x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S384x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S384x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S384x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def k8_cond2 (i : grid8.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_9 : BitVec 32 := 0#32
  let v24 : BitVec 1 := Scalar.cmpi .ne v23 c0_i32_9
  v24

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S384_S1x384 : S384.ShapeCasts S1x384
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S2000x128_S2000x128 : S2000x128.ShapeCasts S2000x128
  inb_S384x128_S384x128_0_0 : ∀ a, (![0, 0] : Fin 2 → Nat) a + S384x128.size a ≤ S384x128.size a
  h_S384x128 : 0 < S384x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  shapeCasts_S100000_S100000x1 : S100000.ShapeCasts S100000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S384x128_S2000x384_1_1_0_0_n_n_wf : DotDims.WF S2000x128 S384x128 S2000x384 [1] [1] [0] [0] [] []
  dot_S2000x64_S2000x128_S64x128_0_0_1_1_n_n_wf : DotDims.WF S2000x64 S2000x128 S64x128 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x128.size a ≤ S384x128.size a
  hwx1_2 : ∀ i : grid1.Coords, EltTy.bits .f32 = 32 ∨ (Rect.block (s := S384x128) S384x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S384x128.size a ≤ S384x128.size a
  hwx3_2 : ∀ i : grid3.Coords, EltTy.bits .f32 = 32 ∨ (Rect.block (s := S384x128) S384x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x128.size a ≤ S384x128.size a
  hwx3_3 : ∀ i : grid3.Coords, EltTy.bits .f32 = 32 ∨ (Rect.block (s := S384x128) S384x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S384x128.size a ≤ S384x128.size a
  hwx5_2 : ∀ i : grid5.Coords, EltTy.bits .f32 = 32 ∨ (Rect.block (s := S384x128) S384x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S384x128.size a ≤ S384x128.size a
  hwx5_3 : ∀ i : grid5.Coords, EltTy.bits .f32 = 32 ∨ (Rect.block (s := S384x128) S384x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S384x128.size a ≤ S384x128.size a
  hwx7_2 : ∀ i : grid7.Coords, EltTy.bits .f32 = 32 ∨ (Rect.block (s := S384x128) S384x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S384x128.size a ≤ S384x128.size a
  hwx7_3 : ∀ i : grid7.Coords, EltTy.bits .f32 = 32 ∨ (Rect.block (s := S384x128) S384x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S100000x128.size a
  hwx7_6 : ∀ i : grid7.Coords, EltTy.bits .f32 = 32 ∨ (Rect.block (s := S100000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .i32 = 32 ∨ (Rect.block (s := S100000x1) S2000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x128.size a ≤ S64x128.size a
  hwx8_2 : ∀ i : grid8.Coords, EltTy.bits .f32 = 32 ∨ (Rect.block (s := S64x128) S64x128.size (cc8_transform_2 i) (hinb8_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S384x128_S2000x384_1_1_0_0_n_n : DotDims S2000x128 S384x128 S2000x384 where
  lhsContracting := [1]
  rhsContracting := [1]
  lhsNonContracting := [0]
  rhsNonContracting := [0]
  lhsBatch := []
  rhsBatch := []
  wf := dot_S2000x128_S384x128_S2000x384_1_1_0_0_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S384x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S384x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S384x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v33) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v46) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S384x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg5) S384x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v4) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v5) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v47) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v47) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v50) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v60) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v47) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S384x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg5) S384x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v4) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v5) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v61) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v61) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v62) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v63) S64x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4x128x128 : Shape := ⟨3, ![4, 128, 128]⟩
abbrev S384x128 : Shape := ⟨2, ![384, 128]⟩
abbrev S384 : Shape := ⟨1, ![384]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 267
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4x128x128, .f32⟩
  | 4 => ⟨S384x128, .f32⟩
  | 5 => ⟨S384x128, .f32⟩
  | 6 => ⟨S384, .f32⟩
  | 7 => ⟨S384, .f32⟩
  | 8 => ⟨S1x1600000, .i32⟩
  | 9 => ⟨S1600000, .i32⟩
  | 10 => ⟨S1x1600000, .i32⟩
  | 11 => ⟨S1600000, .i32⟩
  | 12 => ⟨S1x128x128, .f32⟩
  | 13 => ⟨S128x128, .f32⟩
  | 14 => ⟨S100000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S128x384, .f32⟩
  | 29 => ⟨S100000x384, .f32⟩
  | 30 => ⟨S1x384, .f32⟩
  | 31 => ⟨S100000x384, .f32⟩
  | 32 => ⟨S100000x384, .f32⟩
  | 33 => ⟨S128x384, .f32⟩
  | 34 => ⟨S100000x384, .f32⟩
  | 35 => ⟨S1x384, .f32⟩
  | 36 => ⟨S100000x384, .f32⟩
  | 37 => ⟨S100000x384, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S128x384, .f32⟩
  | 88 => ⟨S100000x384, .f32⟩
  | 89 => ⟨S1x384, .f32⟩
  | 90 => ⟨S100000x384, .f32⟩
  | 91 => ⟨S100000x384, .f32⟩
  | 92 => ⟨S128x384, .f32⟩
  | 93 => ⟨S100000x384, .f32⟩
  | 94 => ⟨S1x384, .f32⟩
  | 95 => ⟨S100000x384, .f32⟩
  | 96 => ⟨S100000x384, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S128x384, .f32⟩
  | 19 => ⟨S100000x384, .f32⟩
  | 20 => ⟨S1x384, .f32⟩
  | 21 => ⟨S100000x384, .f32⟩
  | 22 => ⟨S100000x384, .f32⟩
  | 23 => ⟨S128x384, .f32⟩
  | 24 => ⟨S100000x384, .f32⟩
  | 25 => ⟨S1x384, .f32⟩
  | 26 => ⟨S100000x384, .f32⟩
  | 27 => ⟨S100000x384, .f32⟩
  | 28 => ⟨S100000x128, .f32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S1x128x128, .f32⟩
  | 62 => ⟨S128x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S128x384, .f32⟩
  | 78 => ⟨S100000x384, .f32⟩
  | 79 => ⟨S1x384, .f32⟩
  | 80 => ⟨S100000x384, .f32⟩
  | 81 => ⟨S100000x384, .f32⟩
  | 82 => ⟨S128x384, .f32⟩
  | 83 => ⟨S100000x384, .f32⟩
  | 84 => ⟨S1x384, .f32⟩
  | 85 => ⟨S100000x384, .f32⟩
  | 86 => ⟨S100000x384, .f32⟩
  | 87 => ⟨S100000x128, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_2 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_6 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_9 : Ref sig .tc := ⟨.hbm, 106, rfl⟩
abbrev main_v87 : Ref sig .tc := ⟨.hbm, 107, rfl⟩
abbrev main_v88 : Ref sig .tc := ⟨.hbm, 108, rfl⟩
abbrev main_cst_10 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_cst_12 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_14 : Ref sig .tc := ⟨.hbm, 133, rfl⟩
abbrev main_v109 : Ref sig .tc := ⟨.hbm, 134, rfl⟩
abbrev main_v110 : Ref sig .tc := ⟨.hbm, 135, rfl⟩
abbrev main_c_15 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_16 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_cst_18 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_19 : Ref sig .tc := ⟨.hbm, 174, rfl⟩
abbrev main_v145 : Ref sig .tc := ⟨.hbm, 175, rfl⟩
abbrev main_v146 : Ref sig .tc := ⟨.hbm, 176, rfl⟩
abbrev main_cst_20 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_21 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_c_22 : Ref sig .tc := ⟨.hbm, 192, rfl⟩
abbrev main_v160 : Ref sig .tc := ⟨.hbm, 193, rfl⟩
abbrev main_v161 : Ref sig .tc := ⟨.hbm, 194, rfl⟩
abbrev main_c_23 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_24 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_cst_25 : Ref sig .tc := ⟨.hbm, 224, rfl⟩
abbrev main_v189 : Ref sig .tc := ⟨.hbm, 225, rfl⟩
abbrev main_v190 : Ref sig .tc := ⟨.hbm, 226, rfl⟩
abbrev main_cst_26 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_cst_27 : Ref sig .tc := ⟨.hbm, 233, rfl⟩
abbrev main_v196 : Ref sig .tc := ⟨.hbm, 234, rfl⟩
abbrev main_v197 : Ref sig .tc := ⟨.hbm, 235, rfl⟩
abbrev main_cst_28 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_cst_29 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_call0_cst : Ref sig .tc := ⟨.hbm, 248, rfl⟩
abbrev main_call0_v0 : Ref sig .tc := ⟨.hbm, 249, rfl⟩
abbrev main_v208 : Ref sig .tc := ⟨.hbm, 250, rfl⟩
abbrev main_cst_30 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_cst_31 : Ref sig .tc := ⟨.hbm, 255, rfl⟩
abbrev main_v212 : Ref sig .tc := ⟨.hbm, 256, rfl⟩
abbrev main_cst_32 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_cst_33 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.RegOf.lean ====
import proofs.«402922_j42726334660740_1_alg».proof.Proof.Gen.Kernel.Launch
import proofs.«402922_j42726334660740_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev L0 : GSem nD τ sig → Finset Unit := fun _ => ∅
abbrev lv0 : GSem nD τ sig → Unit → ℕ := fun _ _ => 0

abbrev Rd (c : Dev nD) : sProp 𝕄 :=
  iprop((∃ r, prngReg c r) ∗ ∃ W, owes (c : Thread nD τ) (0 : CellTallies nD τ sig Unit) W)

variable (pdats : (p : Fin 9) → (c : Dev nD) → Dat τ (Elt F) Unit ℕ (UR sig nD τ) ℕ (cfgs p) c)

set_option backward.isDefEq.respectTransparency.types false in

def regOf (p : Fin 9) (lf : Pipeline.LaunchFacts (nD := nD) (τ := τ) cfgs p)
    (Ve Vx : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hΦ0 : ∀ c, (Pipeline.ΦA (U := UR sig nD τ) (Val := Elt F) (cfgs p).spec c : sProp 𝕄) ⊢ (pdats p c).Φ 0)
    (hΦN : ∀ c, (pdats p c).Φ (Fin.last (cfgs p).N) ⊢ (Pipeline.ΦA (U := UR sig nD τ) (Val := Elt F) (cfgs p).spec c : sProp 𝕄))
    (hA : ∀ c w, (pdats p c).A w = Ve c (Pipeline.arrRef (cfgs p).spec w))
    (hF : ∀ c w, (pdats p c).arrAt w (cfgs p).N = Vx c (Pipeline.arrRef (cfgs p).spec w))
    (hrest : ∀ c (b : Ref sig .tc), b ∉ Finset.univ.image (Pipeline.arrRef (cfgs p).spec) → Vx c b = Ve c b) :
    Pipeline.RegionSeg (pcfgs (F := F)) adm pdats () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Ve c) ∗ Rd c)
  post c := iprop(StableHlo.held (c : Thread nD τ) (Pipeline.ucRefs τ sig) (Vx c) ∗ Rd c)
  X c := iprop(∃ r, prngReg c r)
  Y c := iprop(∃ r, prngReg c r)
  Z c := Pipeline.unscopedRest (Ix := Unit) (Name := ℕ) (U := UR sig nD τ) (Lvl := ℕ) (cfgs p).spec c (fun b => Ve c b)
  hentry c := by
    rw [Pipeline.ownSems0_none]
    unfold Pipeline.Dat.owesAt
    rw [howed c 0]
    have hsplit := Pipeline.arrays_of_unscopedBufs (p := p) (pcfgs (F := F)) adm pdats lf.win lf.arr_whole c
      ((pdats p c).share_full (hq c)) (fun b => Ve c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (by rw [hrec c 0]; trivial)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    unfold Pipeline.Dat.owesAt
    rw [howed c (Fin.last _)]
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Ve c b) (fun b => Vx c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

theorem exit_of_update (p : Fin 9) (lf : Pipeline.LaunchFacts (nD := nD) (τ := τ) cfgs p)
    (Ve Vx : Dev nD → Valuation τ sig (Elt F)) (wo : Fin (cfgs p).W)
    (hin : ∀ w, w ≠ wo → ((cfgs p).win w).isOut = false)
    (hA : ∀ c w, (pdats p c).A w = Ve c (Pipeline.arrRef (cfgs p).spec w))
    (hx : ∀ c, Vx c = Function.update (Ve c) (Pipeline.arrRef (cfgs p).spec wo) ((pdats p c).arrAt wo (cfgs p).N)) :
    (∀ c w, (pdats p c).arrAt w (cfgs p).N = Vx c (Pipeline.arrRef (cfgs p).spec w))
    ∧ (∀ c (b : Ref sig .tc), b ∉ Finset.univ.image (Pipeline.arrRef (cfgs p).spec) → Vx c b = Ve c b) := by
  refine ⟨fun c w => ?_, fun c b hb => ?_⟩
  · rw [hx c]
    by_cases h : w = wo
    · subst h; simp only [Function.update_self]
    · have hne : (Proc.devRef .tc (Pipeline.arrRef (cfgs p).spec w) : DevRef τ sig) ≠ Proc.devRef .tc (Pipeline.arrRef (cfgs p).spec wo) :=
        StableHlo.devRef_ne_of_ne (fun e => h (lf.win.arr_inj e))
      simp only [Function.update_of_ne hne]
      exact ((pdats p c).arrAt_in w (hin w h) _).trans (hA c w)
  · rw [hx c]
    have hne : (Proc.devRef .tc b : DevRef τ sig) ≠ Proc.devRef .tc (Pipeline.arrRef (cfgs p).spec wo) :=
      StableHlo.devRef_ne_of_ne (fun e => hb (Finset.mem_image.mpr ⟨wo, Finset.mem_univ _, e.symm⟩))
    simp only [Function.update_of_ne hne]

end Cert.Kernel.Hand

end
-- ==== Proof.K.Reg0.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-- The output block: one write over the whole block of the product of the two input blocks. -/
def out0_2 (xa : Vec F S2000x128 .f32) (xb : Vec F S128x128 .f32) : Vec F S2000x128 .f32 :=
  View.canon [⟨r0_0, k0_pay1 (View.ld xa r0_0) (View.ld xb r0_1)⟩]

/-- The proof data: every input window keeps its block, the output window takes `out0_2` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

/-- The body writes no input window: what it finds in one is the block it leaves there. -/
theorem before0 (c : Dev nD) (w : Fin 3) (hw : w ≠ 2) (t : Fin cfg0.N) (d) : (dat0 V c).before w t d = (dat0 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out0_2` of them. -/
theorem body_obligation0 (c : Dev nD) : BodyObligation (dat0 (F := F) V c) (defs₀ (F := F)) Variants.none () Set.univ := fun t => by
  rw [bigSep_W0, bigSep_W0]
  sl_whnfR [defs₀, Defs.onTc]
  simp (disch := decide) only [before0 V c, cc0__transform_kernel_eq_skeleton]
  dsimp only [dat0, Dat.owesAt, Dat.bound]
  unfold cc0__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.Kernel.Hand

end
-- ==== Proof.K.Reg1.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S384x128 := Rect.unit (s := S384x128) ![0, 0] S384x128.size inb_S384x128_S384x128_0_0
abbrev r1_2 : Rect S1x384 := Rect.unit (s := S1x384) ![0, 0] S1x384.size inb_S1x384_S1x384_0_0

/-- The output block: the gated update of the six input blocks, written through the whole rectangle. -/
def out1_6 (xa xb : Vec F S2000x128 .f32) (xc xd : Vec F S384x128 .f32) (xe xf : Vec F S1x384 .f32) : Vec F S2000x128 .f32 :=
  View.canon [⟨r1_0, k1_pay1 (View.ld xb r1_0) (View.ld xa r1_0) (View.ld xc r1_1) (View.ld xd r1_1) (View.ld xe r1_2) (View.ld xf r1_2)⟩]

/-- The proof data: every input window keeps its block, the output window takes `out1_6` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- The body writes no input window: what it finds in one is the block it leaves there. -/
theorem before1 (c : Dev nD) (w : Fin 7) (hw : w ≠ 6) (t : Fin cfg1.N) (d) : (dat1 V c).before w t d = (dat1 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out1_6` of them. -/
theorem body_obligation1 (c : Dev nD) : BodyObligation (dat1 (F := F) V c) (defs₀ (F := F)) Variants.none () Set.univ := fun t => by
  rw [bigSep_W1, bigSep_W1]
  sl_whnfR [defs₀, Defs.onTc]
  simp (disch := decide) only [before1 V c, cc1__gru_kernel_eq_skeleton]
  dsimp only [dat1, Dat.owesAt, Dat.bound]
  unfold cc1__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.Kernel.Hand

end
-- ==== Proof.K.Reg2.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

/-- The output block: one write over the whole block of the product of the two input blocks. -/
def out2_2 (xa : Vec F S2000x128 .f32) (xb : Vec F S128x128 .f32) : Vec F S2000x128 .f32 :=
  View.canon [⟨r2_0, k2_pay1 (View.ld xa r2_0) (View.ld xb r2_1)⟩]

/-- The proof data: every input window keeps its block, the output window takes `out2_2` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

/-- The body writes no input window: what it finds in one is the block it leaves there. -/
theorem before2 (c : Dev nD) (w : Fin 3) (hw : w ≠ 2) (t : Fin cfg2.N) (d) : (dat2 V c).before w t d = (dat2 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out2_2` of them. -/
theorem body_obligation2 (c : Dev nD) : BodyObligation (dat2 (F := F) V c) (defs₀ (F := F)) Variants.none () Set.univ := fun t => by
  rw [bigSep_W2, bigSep_W2]
  sl_whnfR [defs₀, Defs.onTc]
  simp (disch := decide) only [before2 V c, cc2__transform_kernel_eq_skeleton]
  dsimp only [dat2, Dat.owesAt, Dat.bound]
  unfold cc2__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.Kernel.Hand

end
-- ==== Proof.K.Reg3.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S384x128 := Rect.unit (s := S384x128) ![0, 0] S384x128.size inb_S384x128_S384x128_0_0
abbrev r3_2 : Rect S1x384 := Rect.unit (s := S1x384) ![0, 0] S1x384.size inb_S1x384_S1x384_0_0

/-- The output block: the gated update of the six input blocks, written through the whole rectangle. -/
def out3_6 (xa xb : Vec F S2000x128 .f32) (xc xd : Vec F S384x128 .f32) (xe xf : Vec F S1x384 .f32) : Vec F S2000x128 .f32 :=
  View.canon [⟨r3_0, k3_pay1 (View.ld xb r3_0) (View.ld xa r3_0) (View.ld xc r3_1) (View.ld xd r3_1) (View.ld xe r3_2) (View.ld xf r3_2)⟩]

/-- The proof data: every input window keeps its block, the output window takes `out3_6` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- The body writes no input window: what it finds in one is the block it leaves there. -/
theorem before3 (c : Dev nD) (w : Fin 7) (hw : w ≠ 6) (t : Fin cfg3.N) (d) : (dat3 V c).before w t d = (dat3 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out3_6` of them. -/
theorem body_obligation3 (c : Dev nD) : BodyObligation (dat3 (F := F) V c) (defs₀ (F := F)) Variants.none () Set.univ := fun t => by
  rw [bigSep_W3, bigSep_W3]
  sl_whnfR [defs₀, Defs.onTc]
  simp (disch := decide) only [before3 V c, cc3__gru_kernel_eq_skeleton]
  dsimp only [dat3, Dat.owesAt, Dat.bound]
  unfold cc3__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.Kernel.Hand

end
-- ==== Proof.K.Reg4.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

/-- The output block: one write over the whole block of the product of the two input blocks. -/
def out4_2 (xa : Vec F S2000x128 .f32) (xb : Vec F S128x128 .f32) : Vec F S2000x128 .f32 :=
  View.canon [⟨r4_0, k4_pay1 (View.ld xa r4_0) (View.ld xb r4_1)⟩]

/-- The proof data: every input window keeps its block, the output window takes `out4_2` of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_2 (c : Dev nD) (t : Fin cfg4.N) : (dat4 V c).after 2 t = out4_2 (iblk4 V c 0 t) (iblk4 V c 1 t) := by dsimp only [dat4]

/-- The body writes no input window: what it finds in one is the block it leaves there. -/
theorem before4 (c : Dev nD) (w : Fin 3) (hw : w ≠ 2) (t : Fin cfg4.N) (d) : (dat4 V c).before w t d = (dat4 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out4_2` of them. -/
theorem body_obligation4 (c : Dev nD) : BodyObligation (dat4 (F := F) V c) (defs₀ (F := F)) Variants.none () Set.univ := fun t => by
  rw [bigSep_W4, bigSep_W4]
  sl_whnfR [defs₀, Defs.onTc]
  simp (disch := decide) only [before4 V c, cc4__transform_kernel_eq_skeleton]
  dsimp only [dat4, Dat.owesAt, Dat.bound]
  unfold cc4__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.Kernel.Hand

end
-- ==== Proof.K.Reg5.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S384x128 := Rect.unit (s := S384x128) ![0, 0] S384x128.size inb_S384x128_S384x128_0_0
abbrev r5_2 : Rect S1x384 := Rect.unit (s := S1x384) ![0, 0] S1x384.size inb_S1x384_S1x384_0_0

/-- The output block: the gated update of the six input blocks, written through the whole rectangle. -/
def out5_6 (xa xb : Vec F S2000x128 .f32) (xc xd : Vec F S384x128 .f32) (xe xf : Vec F S1x384 .f32) : Vec F S2000x128 .f32 :=
  View.canon [⟨r5_0, k5_pay1 (View.ld xb r5_0) (View.ld xa r5_0) (View.ld xc r5_1) (View.ld xd r5_1) (View.ld xe r5_2) (View.ld xf r5_2)⟩]

/-- The proof data: every input window keeps its block, the output window takes `out5_6` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- The body writes no input window: what it finds in one is the block it leaves there. -/
theorem before5 (c : Dev nD) (w : Fin 7) (hw : w ≠ 6) (t : Fin cfg5.N) (d) : (dat5 V c).before w t d = (dat5 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out5_6` of them. -/
theorem body_obligation5 (c : Dev nD) : BodyObligation (dat5 (F := F) V c) (defs₀ (F := F)) Variants.none () Set.univ := fun t => by
  rw [bigSep_W5, bigSep_W5]
  sl_whnfR [defs₀, Defs.onTc]
  simp (disch := decide) only [before5 V c, cc5__gru_kernel_eq_skeleton]
  dsimp only [dat5, Dat.owesAt, Dat.bound]
  unfold cc5__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.Kernel.Hand

end
-- ==== Proof.K.Reg6.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-- The output block: one write over the whole block of the product of the two input blocks. -/
def out6_2 (xa : Vec F S2000x128 .f32) (xb : Vec F S128x128 .f32) : Vec F S2000x128 .f32 :=
  View.canon [⟨r6_0, k6_pay1 (View.ld xa r6_0) (View.ld xb r6_1)⟩]

/-- The proof data: every input window keeps its block, the output window takes `out6_2` of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_2 (c : Dev nD) (t : Fin cfg6.N) : (dat6 V c).after 2 t = out6_2 (iblk6 V c 0 t) (iblk6 V c 1 t) := by dsimp only [dat6]

/-- The body writes no input window: what it finds in one is the block it leaves there. -/
theorem before6 (c : Dev nD) (w : Fin 3) (hw : w ≠ 2) (t : Fin cfg6.N) (d) : (dat6 V c).before w t d = (dat6 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out6_2` of them. -/
theorem body_obligation6 (c : Dev nD) : BodyObligation (dat6 (F := F) V c) (defs₀ (F := F)) Variants.none () Set.univ := fun t => by
  rw [bigSep_W6, bigSep_W6]
  sl_whnfR [defs₀, Defs.onTc]
  simp (disch := decide) only [before6 V c, cc6__transform_kernel_eq_skeleton]
  dsimp only [dat6, Dat.owesAt, Dat.bound]
  unfold cc6__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.Kernel.Hand

end
-- ==== Proof.K.Reg7.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Tactic

noncomputable section

namespace Cert.Kernel.Hand

open Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x128 := Rect.unit (s := S2000x128) ![0, 0] S2000x128.size inb_S2000x128_S2000x128_0_0
abbrev r7_1 : Rect S384x128 := Rect.unit (s := S384x128) ![0, 0] S384x128.size inb_S384x128_S384x128_0_0
abbrev r7_2 : Rect S1x384 := Rect.unit (s := S1x384) ![0, 0] S1x384.size inb_S1x384_S1x384_0_0

/-- The output block: the gated update of the six input blocks, written through the whole rectangle. -/
def out7_6 (xa xb : Vec F S2000x128 .f32) (xc xd : Vec F S384x128 .f32) (xe xf : Vec F S1x384 .f32) : Vec F S2000x128 .f32 :=
  View.canon [⟨r7_0, k7_pay1 (View.ld xb r7_0) (View.ld xa r7_0) (View.ld xc r7_1) (View.ld xd r7_1) (View.ld xe r7_2) (View.ld xf r7_2)⟩]

/-- The proof data: every input window keeps its block, the output window takes `out7_6` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- The body writes no input window: what it finds in one is the block it leaves there. -/
theorem before7 (c : Dev nD) (w : Fin 7) (hw : w ≠ 6) (t : Fin cfg7.N) (d) : (dat7 V c).before w t d = (dat7 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out7_6` of them. -/
theorem body_obligation7 (c : Dev nD) : BodyObligation (dat7 (F := F) V c) (defs₀ (F := F)) Variants.none () Set.univ := fun t => by
  rw [bigSep_W7, bigSep_W7]
  sl_whnfR [defs₀, Defs.onTc]
  simp (disch := decide) only [before7 V c, cc7__gru_kernel_eq_skeleton]
  dsimp only [dat7, Dat.owesAt, Dat.bound]
  unfold cc7__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.Kernel.Hand

end
-- ==== Proof.K.Reg8Runs.lean ====
import proofs.«402922_j42726334660740_1_alg».proof.Proof.Gen.Kernel.Launch
import proofs.«402922_j42726334660740_1_alg».proof.Proof.Gen.Kernel.Skeleton
import proofs.«402922_j42726334660740_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the array's contents on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 49 :=
  (by decide +kernel : ∀ t : Fin grid8.N, cond8_1 (grid8.coords t) ↔ t.val = 49)

theorem liveAt8_0 : ∀ t : Fin cfg8.N, cfg8.idle 0 (grid8.coords t) = false := by decide +kernel
theorem liveAt8_1 : ∀ t : Fin cfg8.N, cfg8.idle 1 (grid8.coords t) = false := by decide +kernel
theorem idle8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem live8_2 : ∀ t : Fin cfg8.N, cond8_1 (grid8.coords t) → cfg8.idle 2 (grid8.coords t) = false := by decide +kernel

abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x1 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S64x128 .f32 := win8_2.stage (cfg8.slots t 2)
abbrev hs8_2 (t : Fin cfg8.N) : (ms8_2 t).IsWhole := hstage8_2 ((cfg8.slots t 2).cast nbuf8_2)
abbrev scM8_0 : Memref sig .tc .vmem S64x128 .f32 := Memref.whole cc8_scratch0

theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8_0, owns_whole]; try rfl

theorem off2_zero : (![0, 0] : Fin 2 → ℕ) = fun _ => 0 := by
  funext a; revert a; decide

/-- A store through the whole rectangle, made last, reads back as its payload whatever came before. -/
theorem read_writes_whole {Val : EltTy → Type} [∀ e, Nonempty (Val e)] {σ : RefSig} {κ : Kind} {sp : Space} {S : Shape} {e : EltTy}
    (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ fun y => ⟨_, List.mem_cons_self .., View.mem_set_unit_zero h inb y⟩,
    View.canon_cons_unit_zero h]

end Cert.Kernel.Hand

end
-- ==== Proof.K.Reg8RunA.lean ====
import proofs.«402922_j42726334660740_1_alg».proof.Proof.K.Reg8Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point 0: the accumulator is zeroed, then updated by the two blocks. -/
theorem run8_A (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : cond8_0 i) (hc1 : ¬cond8_1 i)
    (x0 : Vec F S2000x128 .f32) (x1 : Vec F S2000x1 .i32) (xi2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k8_pay2 x0 x1 k8_pay1)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_whole (S := S64x128) _ _ off2_zero, View.readCov_unit_zero (S := S64x128) _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.Kernel.Hand

end
-- ==== Proof.K.Reg8RunB.lean ====
import proofs.«402922_j42726334660740_1_alg».proof.Proof.K.Reg8RunA

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Points 1 … 48: the accumulator is updated by the two blocks. -/
theorem run8_B (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : ¬cond8_0 i) (hc1 : ¬cond8_1 i)
    (x0 : Vec F S2000x128 .f32) (x1 : Vec F S2000x1 .i32) (xi2 xs0 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs0
        ∗ (iprop(owns (c : Thread nD τ) arg1 fullShare x0 ∗ owns (c : Thread nD τ) arg2 fullShare x1 ∗ owns (c : Thread nD τ) arg3 fullShare xi2 ∗ owns (c : Thread nD τ) arg4 fullShare (k8_pay2 x0 x1 xs0)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_whole (S := S64x128) _ _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.Kernel.Hand

end
-- ==== Proof.K.Reg8RunC.lean ====
import proofs.«402922_j42726334660740_1_alg».proof.Proof.K.Reg8RunB

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point 49: the accumulator is updated by the two blocks, then copied to the output. -/
theorem run8_C (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : ¬cond8_0 i) (hc1 : cond8_1 i)
    (x0 : Vec F S2000x128 .f32) (x1 : Vec F S2000x1 .i32) (xs0 : Vec F S64x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs0
        ∗ (iprop(owns (c : Thread nD τ) arg1 fullShare x0 ∗ owns (c : Thread nD τ) arg2 fullShare x1 ∗ owns (c : Thread nD τ) arg3 fullShare (k8_pay2 x0 x1 xs0) ∗ owns (c : Thread nD τ) arg4 fullShare (k8_pay2 x0 x1 xs0)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_whole (S := S64x128) _ _ off2_zero, View.readCov_unit_zero (S := S64x128) _ off2_zero]
    simp only [View.readAt_eq_ld, harg1.read_unread, harg2.read_unread, harg4.read_unread, View.ld_unit_zero (S := S2000x128) off2_zero, View.ld_unit_zero (S := S2000x1) off2_zero, View.ld_unit_zero (S := S64x128) off2_zero]
  iexists _; isplitr
  swap; · iexact HS0
  ipureintro
  sl_unfold_words
  rw [read_writes_whole (S := S64x128) _ _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.Kernel.Hand

end
-- ==== Proof.K.Reg8.lean ====
import proofs.«402922_j42726334660740_1_alg».proof.Proof.K.Reg8RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Output and accumulator after point `n`: the update by the point's two blocks of the previous accumulator, zero before point 0. -/
def outsAt8 (c : Dev nD) : (n : ℕ) → n < cfg8.N → Vec F S64x128 .f32 × Vec F S64x128 .f32
  | 0, hn => (fun s => (s, s)) (k8_pay2 (iblk8 V c 0 ⟨0, hn⟩) (iblk8 V c 1 ⟨0, hn⟩) k8_pay1)
  | n + 1, hn => (fun s => (s, s)) (k8_pay2 (iblk8 V c 0 ⟨n + 1, hn⟩) (iblk8 V c 1 ⟨n + 1, hn⟩) (outsAt8 c n (Nat.lt_of_succ_lt hn)).2)

theorem sc8_zero (c : Dev nD) (h0 : 0 < cfg8.N) :
    (outsAt8 V c 0 h0).2 = k8_pay2 (iblk8 V c 0 ⟨0, h0⟩) (iblk8 V c 1 ⟨0, h0⟩) k8_pay1 := rfl

theorem sc8_succ (c : Dev nD) (n : ℕ) (hn : n + 1 < cfg8.N) :
    (outsAt8 V c (n + 1) hn).2 = k8_pay2 (iblk8 V c 0 ⟨n + 1, hn⟩) (iblk8 V c 1 ⟨n + 1, hn⟩) (outsAt8 V c n (Nat.lt_of_succ_lt hn)).2 := rfl

theorem out8_eq (c : Dev nD) : ∀ n h, (outsAt8 V c n h).1 = (outsAt8 V c n h).2
  | 0, _ => rfl
  | _ + 1, _ => rfl

theorem out8_last (c : Dev nD) (h : 49 < cfg8.N) : (outsAt8 V c 49 h).1 = (outsAt8 V c 49 h).2 := out8_eq V c 49 h

theorem acc8_zero (c : Dev nD) (t : Fin cfg8.N) (h0 : t.val = 0) :
    (outsAt8 V c t.val t.isLt).2 = k8_pay2 (iblk8 V c 0 t) (iblk8 V c 1 t) k8_pay1 := by
  obtain ⟨n, hn⟩ := t
  cases n with
  | zero => rfl
  | succ n => exact absurd h0 (Nat.succ_ne_zero n)

theorem acc8_pos (c : Dev nD) (t : Fin cfg8.N) (h0 : ¬t.val = 0) :
    (outsAt8 V c t.val t.isLt).2 = k8_pay2 (iblk8 V c 0 t) (iblk8 V c 1 t) (outsAt8 V c (t.val - 1) (Nat.lt_of_le_of_lt (Nat.sub_le _ _) t.isLt)).2 := by
  obtain ⟨n, hn⟩ := t
  cases n with
  | zero => exact absurd rfl h0
  | succ n => rfl

/-- The invariant before position `n`: the accumulator holds what point `n - 1` left. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem after8_2 (c : Dev nD) (t : Fin cfg8.N) : (dat8 V c).after 2 t = (outsAt8 V c t.val t.isLt).1 := by dsimp only [dat8]

theorem before8_0 (c : Dev nD) (t : Fin cfg8.N) (d) : (dat8 V c).before 0 t d = iblk8 V c 0 t :=
  before8_0_of V (dat8 V c) rfl (fun _ => rfl) t d
theorem before8_1 (c : Dev nD) (t : Fin cfg8.N) (d) : (dat8 V c).before 1 t d = iblk8 V c 1 t :=
  before8_1_of V (dat8 V c) rfl (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

/-- Each point runs its case with the accumulator lent by the invariant and returned updated. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = iprop(iprop(owns (c : Thread nD τ) scM8_0 fullShare ((outsAt8 V c t.val t.isLt).2) ∗ Pipeline.scopedRestBut (Ix := Unit) (Name := ℕ) (U := UR sig nD τ) (Lvl := ℕ) (Val := Elt F) spec8 c [cc8_scratch0]) ∗ (∃ r, prngReg c r)) from rfl,
    show (dat8 V c).Φ t.castSucc = PhiS8 V c t.val (Nat.le_of_lt t.isLt) from rfl,
    show (dat8 V c).leavesExact 0 t = owns (c : Thread nD τ) (ms8_0 t) fullShare (iblk8 V c 0 t) from by
      unfold Dat.leavesExact; rw [liveAt8_0 t]; rfl,
    show (dat8 V c).leavesExact 1 t = owns (c : Thread nD τ) (ms8_1 t) fullShare (iblk8 V c 1 t) from by
      unfold Dat.leavesExact; rw [liveAt8_1 t]; rfl]
  have hN : t.val < 50 := lt_of_lt_of_eq t.isLt (show cfg8.N = 50 from N_8)
  by_cases h1 : t.val = 49
  · have h0 : ¬t.val = 0 := by omega
    have hc1 := (hcond8_1 t).mpr h1
    rw [show (dat8 V c).leavesExact 2 t = owns (c : Thread nD τ) (ms8_2 t) fullShare (outsAt8 V c t.val t.isLt).1 from by
      unfold Dat.leavesExact; rw [live8_2 t hc1]; rfl]
    rw [out8_eq, acc8_pos V c t h0, PhiS8_pos V c _ _ h0]
    iintro ⟨⟨⟨HS0, Hr⟩, Hg⟩, Ho, ⟨%d0, H0⟩, ⟨%d1, H1⟩, ⟨%d2, H2⟩⟩
    iapply (run8_C c (grid8.coords t) _ _ _ _ _ _ _ _ (fun h => h0 ((hcond8_0 t).mp h)) hc1 (iblk8 V c 0 t) (iblk8 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    iexact H2
  · have hc1 : ¬cond8_1 (grid8.coords t) := fun h => h1 ((hcond8_1 t).mp h)
    rw [Dat.leavesExact_idle (dat8 V c) 2 t (idle8_2 t hc1) (noFlush8_2 t hc1)]
    by_cases h0 : t.val = 0
    · rw [acc8_zero V c t h0, show PhiS8 V c t.val (Nat.le_of_lt t.isLt) = Pipeline.ΦA spec8 c from by
        obtain ⟨n, hn⟩ := t; subst h0; rfl, PhiA8_eq]
      iintro ⟨⟨⟨HS0, Hr⟩, Hg⟩, Ho, ⟨%d0, H0⟩, ⟨%d1, H1⟩, ⟨%d2, H2⟩⟩
      iapply (run8_A c (grid8.coords t) _ _ _ _ _ _ _ _ ((hcond8_0 t).mpr h0) hc1 (iblk8 V c 0 t) (iblk8 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [acc8_pos V c t h0, PhiS8_pos V c _ _ h0]
      iintro ⟨⟨⟨HS0, Hr⟩, Hg⟩, Ho, ⟨%d0, H0⟩, ⟨%d1, H1⟩, ⟨%d2, H2⟩⟩
      iapply (run8_B c (grid8.coords t) _ _ _ _ _ _ _ _ (fun h => h0 ((hcond8_0 t).mp h)) hc1 (iblk8 V c 0 t) (iblk8 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 :=
  Idealize.SL.BI.Entails.refl _

theorem hout8 (c : Dev nD) : (dat8 V c).Φ (Fin.last cfg8.N) ⊢ Pipeline.ΦA spec8 c := by
  rw [show (dat8 V c).Φ (Fin.last cfg8.N) = PhiS8 V c cfg8.N (Nat.le_refl _) from rfl,
    PhiS8_pos V c _ _ (by rw [show cfg8.N = 50 from N_8]; decide), PhiA8_eq]
  iintro ⟨⟨HS0, Hr⟩, Hg⟩
  isplitl [HS0 Hr]
  · isplitl [HS0]
    · iexists _; iexact HS0
    iexact Hr
  iexact Hg

end Cert.Kernel.Hand

end
-- ==== Proof.K.Stages.lean ====
import proofs.«402922_j42726334660740_1_alg».proof.Proof.K.RegOf
import proofs.«402922_j42726334660740_1_alg».proof.Proof.K.Reg0
import proofs.«402922_j42726334660740_1_alg».proof.Proof.K.Reg1
import proofs.«402922_j42726334660740_1_alg».proof.Proof.K.Reg2
import proofs.«402922_j42726334660740_1_alg».proof.Proof.K.Reg3
import proofs.«402922_j42726334660740_1_alg».proof.Proof.K.Reg4
import proofs.«402922_j42726334660740_1_alg».proof.Proof.K.Reg5
import proofs.«402922_j42726334660740_1_alg».proof.Proof.K.Reg6
import proofs.«402922_j42726334660740_1_alg».proof.Proof.K.Reg7
import proofs.«402922_j42726334660740_1_alg».proof.Proof.K.Reg8

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev E0 (c : Dev nD) : Valuation τ sig (Elt F) := fun b => m (c, b)

abbrev E1 (c : Dev nD) : Valuation τ sig (Elt F) := StableHlo.after hostOps0 (E0 m c)

abbrev T1 (c : Dev nD) (b : Ref sig .tc) : Buf (Elt F) ((c : Thread nD τ).loc b) := E1 m c b

def o2 (c : Dev nD) : Buf (Elt F) ((c : Thread nD τ).loc main_v8) := (dat0 (T1 m) c).arrAt 2 cfg0.N

def E2 (c : Dev nD) : Valuation τ sig (Elt F) := Function.update (E1 m c) main_v8 (o2 m c)

abbrev E3 (c : Dev nD) : Valuation τ sig (Elt F) := StableHlo.after hostOps1 (E2 m c)

abbrev T3 (c : Dev nD) (b : Ref sig .tc) : Buf (Elt F) ((c : Thread nD τ).loc b) := E3 m c b

def o4 (c : Dev nD) : Buf (Elt F) ((c : Thread nD τ).loc main_v19) := (dat1 (T3 m) c).arrAt 6 cfg1.N

def E4 (c : Dev nD) : Valuation τ sig (Elt F) := Function.update (E3 m c) main_v19 (o4 m c)

abbrev E5 (c : Dev nD) : Valuation τ sig (Elt F) := StableHlo.after hostOps2 (E4 m c)

abbrev T5 (c : Dev nD) (b : Ref sig .tc) : Buf (Elt F) ((c : Thread nD τ).loc b) := E5 m c b

def o6 (c : Dev nD) : Buf (Elt F) ((c : Thread nD τ).loc main_v22) := (dat2 (T5 m) c).arrAt 2 cfg2.N

def E6 (c : Dev nD) : Valuation τ sig (Elt F) := Function.update (E5 m c) main_v22 (o6 m c)

abbrev E7 (c : Dev nD) : Valuation τ sig (Elt F) := StableHlo.after hostOps3 (E6 m c)

abbrev T7 (c : Dev nD) (b : Ref sig .tc) : Buf (Elt F) ((c : Thread nD τ).loc b) := E7 m c b

def o8 (c : Dev nD) : Buf (Elt F) ((c : Thread nD τ).loc main_v33) := (dat3 (T7 m) c).arrAt 6 cfg3.N

def E8 (c : Dev nD) : Valuation τ sig (Elt F) := Function.update (E7 m c) main_v33 (o8 m c)

abbrev E9 (c : Dev nD) : Valuation τ sig (Elt F) := StableHlo.after hostOps4 (E8 m c)

abbrev T9 (c : Dev nD) (b : Ref sig .tc) : Buf (Elt F) ((c : Thread nD τ).loc b) := E9 m c b

def o10 (c : Dev nD) : Buf (Elt F) ((c : Thread nD τ).loc main_v36) := (dat4 (T9 m) c).arrAt 2 cfg4.N

def E10 (c : Dev nD) : Valuation τ sig (Elt F) := Function.update (E9 m c) main_v36 (o10 m c)

abbrev E11 (c : Dev nD) : Valuation τ sig (Elt F) := StableHlo.after hostOps5 (E10 m c)

abbrev T11 (c : Dev nD) (b : Ref sig .tc) : Buf (Elt F) ((c : Thread nD τ).loc b) := E11 m c b

def o12 (c : Dev nD) : Buf (Elt F) ((c : Thread nD τ).loc main_v47) := (dat5 (T11 m) c).arrAt 6 cfg5.N

def E12 (c : Dev nD) : Valuation τ sig (Elt F) := Function.update (E11 m c) main_v47 (o12 m c)

abbrev E13 (c : Dev nD) : Valuation τ sig (Elt F) := StableHlo.after hostOps6 (E12 m c)

abbrev T13 (c : Dev nD) (b : Ref sig .tc) : Buf (Elt F) ((c : Thread nD τ).loc b) := E13 m c b

def o14 (c : Dev nD) : Buf (Elt F) ((c : Thread nD τ).loc main_v50) := (dat6 (T13 m) c).arrAt 2 cfg6.N

def E14 (c : Dev nD) : Valuation τ sig (Elt F) := Function.update (E13 m c) main_v50 (o14 m c)

abbrev E15 (c : Dev nD) : Valuation τ sig (Elt F) := StableHlo.after hostOps7 (E14 m c)

abbrev T15 (c : Dev nD) (b : Ref sig .tc) : Buf (Elt F) ((c : Thread nD τ).loc b) := E15 m c b

def o16 (c : Dev nD) : Buf (Elt F) ((c : Thread nD τ).loc main_v61) := (dat7 (T15 m) c).arrAt 6 cfg7.N

def E16 (c : Dev nD) : Valuation τ sig (Elt F) := Function.update (E15 m c) main_v61 (o16 m c)

abbrev E17 (c : Dev nD) : Valuation τ sig (Elt F) := StableHlo.after hostOps8 (E16 m c)

abbrev T17 (c : Dev nD) (b : Ref sig .tc) : Buf (Elt F) ((c : Thread nD τ).loc b) := E17 m c b

def o18 (c : Dev nD) : Buf (Elt F) ((c : Thread nD τ).loc main_v63) := (dat8 (T17 m) c).arrAt 2 cfg8.N

def E18 (c : Dev nD) : Valuation τ sig (Elt F) := Function.update (E17 m c) main_v63 (o18 m c)

abbrev E19 (c : Dev nD) : Valuation τ sig (Elt F) := StableHlo.after hostOps9 (E18 m c)

def outs : Outs (F := F) := fun J r c => match J with
  | 2 => E2 m c r
  | 4 => E4 m c r
  | 6 => E6 m c r
  | 8 => E8 m c r
  | 10 => E10 m c r
  | 12 => E12 m c r
  | 14 => E14 m c r
  | 16 => E16 m c r
  | 18 => E18 m c r
  | _ => m ((c : Thread nD τ).loc r)

def pdats : (p : Fin 9) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c

/-- Updating by the value that an update at the same place reads back there is that update. -/
private theorem update_readback {α : Type _} [DecidableEq α] {β : α → Type _} {f g : (a : α) → β a} (h : f = g) (a : α) (v : β a) :
    Function.update f a (Function.update g a v a) = Function.update g a v := by rw [Function.update_self, h]

theorem V1_eq (c : Dev nD) : V1 m c = E1 m c := rfl
theorem V2_eq (c : Dev nD) : V2 m (outs m) c = E2 m c := update_readback (V1_eq m c) _ _
theorem V3_eq (c : Dev nD) : V3 m (outs m) c = E3 m c := congrArg (StableHlo.after hostOps1) (V2_eq m c)
theorem V4_eq (c : Dev nD) : V4 m (outs m) c = E4 m c := update_readback (V3_eq m c) _ _
theorem V5_eq (c : Dev nD) : V5 m (outs m) c = E5 m c := congrArg (StableHlo.after hostOps2) (V4_eq m c)
theorem V6_eq (c : Dev nD) : V6 m (outs m) c = E6 m c := update_readback (V5_eq m c) _ _
theorem V7_eq (c : Dev nD) : V7 m (outs m) c = E7 m c := congrArg (StableHlo.after hostOps3) (V6_eq m c)
theorem V8_eq (c : Dev nD) : V8 m (outs m) c = E8 m c := update_readback (V7_eq m c) _ _
theorem V9_eq (c : Dev nD) : V9 m (outs m) c = E9 m c := congrArg (StableHlo.after hostOps4) (V8_eq m c)
theorem V10_eq (c : Dev nD) : V10 m (outs m) c = E10 m c := update_readback (V9_eq m c) _ _
theorem V11_eq (c : Dev nD) : V11 m (outs m) c = E11 m c := congrArg (StableHlo.after hostOps5) (V10_eq m c)
theorem V12_eq (c : Dev nD) : V12 m (outs m) c = E12 m c := update_readback (V11_eq m c) _ _
theorem V13_eq (c : Dev nD) : V13 m (outs m) c = E13 m c := congrArg (StableHlo.after hostOps6) (V12_eq m c)
theorem V14_eq (c : Dev nD) : V14 m (outs m) c = E14 m c := update_readback (V13_eq m c) _ _
theorem V15_eq (c : Dev nD) : V15 m (outs m) c = E15 m c := congrArg (StableHlo.after hostOps7) (V14_eq m c)
theorem V16_eq (c : Dev nD) : V16 m (outs m) c = E16 m c := update_readback (V15_eq m c) _ _
theorem V17_eq (c : Dev nD) : V17 m (outs m) c = E17 m c := congrArg (StableHlo.after hostOps8) (V16_eq m c)
theorem V18_eq (c : Dev nD) : V18 m (outs m) c = E18 m c := update_readback (V17_eq m c) _ _
theorem V19_eq (c : Dev nD) : V19 m (outs m) c = E19 m c := congrArg (StableHlo.after hostOps9) (V18_eq m c)

end Cert.Kernel.Hand

end
-- ==== Proof.K.Run.lean ====
import proofs.«402922_j42726334660740_1_alg».proof.Proof.K.Stages

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal valuations are held alike. -/
private theorem held_eq {c : Dev nD} {V E : Valuation τ sig (Elt F)} (h : V = E) :
    iprop(StableHlo.held (c : Thread nD τ) (Pipeline.ucRefs τ sig) V ∗ Rd c) ⊢ (iprop(StableHlo.held (c : Thread nD τ) (Pipeline.ucRefs τ sig) E ∗ Rd c) : sProp 𝕄) := h ▸ .rfl

def reg0 : Pipeline.RegionSeg (pcfgs (F := F)) adm (pdats m) () defs₀ Variants.none L0 lv0 0 :=
  have h := exit_of_update (pdats m) 0 launch0 (E1 m) (E2 m) 2 (by decide) (fun _ _ => rfl) (fun _ => rfl)
  regOf (pdats m) 0 launch0 (E1 m) (E2 m) (fun c => body_obligation0 (T1 m) c)
    (fun _ _ => rfl) (fun _ _ => rfl) (fun _ _ => rfl) (fun _ => .rfl) (fun _ => .rfl) (fun _ _ => rfl) h.1 h.2
def reg1 : Pipeline.RegionSeg (pcfgs (F := F)) adm (pdats m) () defs₀ Variants.none L0 lv0 1 :=
  have h := exit_of_update (pdats m) 1 launch1 (E3 m) (E4 m) 6 (by decide) (fun _ _ => rfl) (fun _ => rfl)
  regOf (pdats m) 1 launch1 (E3 m) (E4 m) (fun c => body_obligation1 (T3 m) c)
    (fun _ _ => rfl) (fun _ _ => rfl) (fun _ _ => rfl) (fun _ => .rfl) (fun _ => .rfl) (fun _ _ => rfl) h.1 h.2
def reg2 : Pipeline.RegionSeg (pcfgs (F := F)) adm (pdats m) () defs₀ Variants.none L0 lv0 2 :=
  have h := exit_of_update (pdats m) 2 launch2 (E5 m) (E6 m) 2 (by decide) (fun _ _ => rfl) (fun _ => rfl)
  regOf (pdats m) 2 launch2 (E5 m) (E6 m) (fun c => body_obligation2 (T5 m) c)
    (fun _ _ => rfl) (fun _ _ => rfl) (fun _ _ => rfl) (fun _ => .rfl) (fun _ => .rfl) (fun _ _ => rfl) h.1 h.2
def reg3 : Pipeline.RegionSeg (pcfgs (F := F)) adm (pdats m) () defs₀ Variants.none L0 lv0 3 :=
  have h := exit_of_update (pdats m) 3 launch3 (E7 m) (E8 m) 6 (by decide) (fun _ _ => rfl) (fun _ => rfl)
  regOf (pdats m) 3 launch3 (E7 m) (E8 m) (fun c => body_obligation3 (T7 m) c)
    (fun _ _ => rfl) (fun _ _ => rfl) (fun _ _ => rfl) (fun _ => .rfl) (fun _ => .rfl) (fun _ _ => rfl) h.1 h.2
def reg4 : Pipeline.RegionSeg (pcfgs (F := F)) adm (pdats m) () defs₀ Variants.none L0 lv0 4 :=
  have h := exit_of_update (pdats m) 4 launch4 (E9 m) (E10 m) 2 (by decide) (fun _ _ => rfl) (fun _ => rfl)
  regOf (pdats m) 4 launch4 (E9 m) (E10 m) (fun c => body_obligation4 (T9 m) c)
    (fun _ _ => rfl) (fun _ _ => rfl) (fun _ _ => rfl) (fun _ => .rfl) (fun _ => .rfl) (fun _ _ => rfl) h.1 h.2
def reg5 : Pipeline.RegionSeg (pcfgs (F := F)) adm (pdats m) () defs₀ Variants.none L0 lv0 5 :=
  have h := exit_of_update (pdats m) 5 launch5 (E11 m) (E12 m) 6 (by decide) (fun _ _ => rfl) (fun _ => rfl)
  regOf (pdats m) 5 launch5 (E11 m) (E12 m) (fun c => body_obligation5 (T11 m) c)
    (fun _ _ => rfl) (fun _ _ => rfl) (fun _ _ => rfl) (fun _ => .rfl) (fun _ => .rfl) (fun _ _ => rfl) h.1 h.2
def reg6 : Pipeline.RegionSeg (pcfgs (F := F)) adm (pdats m) () defs₀ Variants.none L0 lv0 6 :=
  have h := exit_of_update (pdats m) 6 launch6 (E13 m) (E14 m) 2 (by decide) (fun _ _ => rfl) (fun _ => rfl)
  regOf (pdats m) 6 launch6 (E13 m) (E14 m) (fun c => body_obligation6 (T13 m) c)
    (fun _ _ => rfl) (fun _ _ => rfl) (fun _ _ => rfl) (fun _ => .rfl) (fun _ => .rfl) (fun _ _ => rfl) h.1 h.2
def reg7 : Pipeline.RegionSeg (pcfgs (F := F)) adm (pdats m) () defs₀ Variants.none L0 lv0 7 :=
  have h := exit_of_update (pdats m) 7 launch7 (E15 m) (E16 m) 6 (by decide) (fun _ _ => rfl) (fun _ => rfl)
  regOf (pdats m) 7 launch7 (E15 m) (E16 m) (fun c => body_obligation7 (T15 m) c)
    (fun _ _ => rfl) (fun _ _ => rfl) (fun _ _ => rfl) (fun _ => .rfl) (fun _ => .rfl) (fun _ _ => rfl) h.1 h.2
def reg8 : Pipeline.RegionSeg (pcfgs (F := F)) adm (pdats m) () defs₀ Variants.none L0 lv0 8 :=
  have h := exit_of_update (pdats m) 8 launch8 (E17 m) (E18 m) 2 (by decide) (fun _ _ => rfl) (fun _ => rfl)
  regOf (pdats m) 8 launch8 (E17 m) (E18 m) (fun c => body_obligation8 (T17 m) c)
    (fun _ _ => rfl) (fun _ _ => rfl) (fun _ _ => rfl) (fun c => hin8 (T17 m) c) (fun c => hout8 (T17 m) c) (fun _ _ => rfl) h.1 h.2

abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (u0 : UR sig nD τ)) ∗ bigSep Finset.univ (fun _ : Dev nD => (BI.emp : sProp 𝕄))) := by
  iintro Hu; imodintro
  isplitl [Hu]
  · iapply (show (ownU (u0 : UR sig nD τ) : sProp 𝕄)
        ⊢ BI.own (emb₁ (u0 : UR sig nD τ)) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rd (F := F) c) : sProp 𝕄) := by
  refine Pipeline.initEach L0 lv0 fun c => ?_
  iintro ⟨⟨-, HO, -, Hp, -⟩, -⟩
  imodintro
  isplitl [Hp]; · iexists _; iexact Hp
  iexists ∅; iexact HO

theorem hE9 (c : Dev nD) : (Rd (F := F) c) ⊢ (iprop(∃ W, owes (c : Thread nD τ) (0 : CellTallies nD τ sig Unit) W) : sProp 𝕄) := by
  iintro ⟨-, HO⟩; iexact HO

/-- Every argument array ends as launched: the nine regions chained through the buffers' contents at the boundaries. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () Variants.none L0 lv0 (fun _ _ => rfl) ρ (outs m) (pdats m) 0 (fun _ => (BI.emp : sProp 𝕄)) u0 hu0
    (fun _ c => Rd c) (hE0 ρ) hE9
    (reg0 m) (fun c => held_eq (V1_eq m c)) (fun c => held_eq (V2_eq m c).symm)
    (reg1 m) (fun c => held_eq (V3_eq m c)) (fun c => held_eq (V4_eq m c).symm)
    (reg2 m) (fun c => held_eq (V5_eq m c)) (fun c => held_eq (V6_eq m c).symm)
    (reg3 m) (fun c => held_eq (V7_eq m c)) (fun c => held_eq (V8_eq m c).symm)
    (reg4 m) (fun c => held_eq (V9_eq m c)) (fun c => held_eq (V10_eq m c).symm)
    (reg5 m) (fun c => held_eq (V11_eq m c)) (fun c => held_eq (V12_eq m c).symm)
    (reg6 m) (fun c => held_eq (V13_eq m c)) (fun c => held_eq (V14_eq m c).symm)
    (reg7 m) (fun c => held_eq (V15_eq m c)) (fun c => held_eq (V16_eq m c).symm)
    (reg8 m) (fun c => held_eq (V17_eq m c)) (fun c => held_eq (V18_eq m c).symm)

end Cert.Kernel.Hand

end
-- ==== Proof.KI.RegOf.lean ====
import proofs.«402922_j42726334660740_1_alg».proof.Proof.Gen.KernelIdeal.Launch
import proofs.«402922_j42726334660740_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev L0 : GSem nD τ sig → Finset Unit := fun _ => ∅
abbrev lv0 : GSem nD τ sig → Unit → ℕ := fun _ _ => 0

abbrev Rd (c : Dev nD) : sProp 𝕄 :=
  iprop((∃ r, prngReg c r) ∗ ∃ W, owes (c : Thread nD τ) (0 : CellTallies nD τ sig Unit) W)

variable (pdats : (p : Fin 9) → (c : Dev nD) → Dat τ (Elt F) Unit ℕ (UR sig nD τ) ℕ (cfgs p) c)

set_option backward.isDefEq.respectTransparency.types false in

def regOf (p : Fin 9) (lf : Pipeline.LaunchFacts (nD := nD) (τ := τ) cfgs p)
    (Ve Vx : Dev nD → Valuation τ sig (Elt F))
    (hbody : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hΦ0 : ∀ c, (Pipeline.ΦA (U := UR sig nD τ) (Val := Elt F) (cfgs p).spec c : sProp 𝕄) ⊢ (pdats p c).Φ 0)
    (hΦN : ∀ c, (pdats p c).Φ (Fin.last (cfgs p).N) ⊢ (Pipeline.ΦA (U := UR sig nD τ) (Val := Elt F) (cfgs p).spec c : sProp 𝕄))
    (hA : ∀ c w, (pdats p c).A w = Ve c (Pipeline.arrRef (cfgs p).spec w))
    (hF : ∀ c w, (pdats p c).arrAt w (cfgs p).N = Vx c (Pipeline.arrRef (cfgs p).spec w))
    (hrest : ∀ c (b : Ref sig .tc), b ∉ Finset.univ.image (Pipeline.arrRef (cfgs p).spec) → Vx c b = Ve c b) :
    Pipeline.RegionSeg (pcfgs (F := F)) adm pdats () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Ve c) ∗ Rd c)
  post c := iprop(StableHlo.held (c : Thread nD τ) (Pipeline.ucRefs τ sig) (Vx c) ∗ Rd c)
  X c := iprop(∃ r, prngReg c r)
  Y c := iprop(∃ r, prngReg c r)
  Z c := Pipeline.unscopedRest (Ix := Unit) (Name := ℕ) (U := UR sig nD τ) (Lvl := ℕ) (cfgs p).spec c (fun b => Ve c b)
  hentry c := by
    rw [Pipeline.ownSems0_none]
    unfold Pipeline.Dat.owesAt
    rw [howed c 0]
    have hsplit := Pipeline.arrays_of_unscopedBufs (p := p) (pcfgs (F := F)) adm pdats lf.win lf.arr_whole c
      ((pdats p c).share_full (hq c)) (fun b => Ve c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (by rw [hrec c 0]; trivial)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    unfold Pipeline.Dat.owesAt
    rw [howed c (Fin.last _)]
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Ve c b) (fun b => Vx c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.owesWithin
    icases HO with ⟨%W, -, HO⟩; iexists W; iexact HO

theorem exit_of_update (p : Fin 9) (lf : Pipeline.LaunchFacts (nD := nD) (τ := τ) cfgs p)
    (Ve Vx : Dev nD → Valuation τ sig (Elt F)) (wo : Fin (cfgs p).W)
    (hin : ∀ w, w ≠ wo → ((cfgs p).win w).isOut = false)
    (hA : ∀ c w, (pdats p c).A w = Ve c (Pipeline.arrRef (cfgs p).spec w))
    (hx : ∀ c, Vx c = Function.update (Ve c) (Pipeline.arrRef (cfgs p).spec wo) ((pdats p c).arrAt wo (cfgs p).N)) :
    (∀ c w, (pdats p c).arrAt w (cfgs p).N = Vx c (Pipeline.arrRef (cfgs p).spec w))
    ∧ (∀ c (b : Ref sig .tc), b ∉ Finset.univ.image (Pipeline.arrRef (cfgs p).spec) → Vx c b = Ve c b) := by
  refine ⟨fun c w => ?_, fun c b hb => ?_⟩
  · rw [hx c]
    by_cases h : w = wo
    · subst h; simp only [Function.update_self]
    · have hne : (Proc.devRef .tc (Pipeline.arrRef (cfgs p).spec w) : DevRef τ sig) ≠ Proc.devRef .tc (Pipeline.arrRef (cfgs p).spec wo) :=
        StableHlo.devRef_ne_of_ne (fun e => h (lf.win.arr_inj e))
      simp only [Function.update_of_ne hne]
      exact ((pdats p c).arrAt_in w (hin w h) _).trans (hA c w)
  · rw [hx c]
    have hne : (Proc.devRef .tc b : DevRef τ sig) ≠ Proc.devRef .tc (Pipeline.arrRef (cfgs p).spec wo) :=
      StableHlo.devRef_ne_of_ne (fun e => hb (Finset.mem_image.mpr ⟨wo, Finset.mem_univ _, e.symm⟩))
    simp only [Function.update_of_ne hne]

end Cert.KernelIdeal.Hand

end
-- ==== Proof.KI.Reg0.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-- The output block: one write over the whole block of the product of the two input blocks. -/
def out0_2 (xa : Vec F S2000x128 .f32) (xb : Vec F S128x128 .f32) : Vec F S2000x128 .f32 :=
  View.canon [⟨r0_0, k0_pay1 (View.ld xa r0_0) (View.ld xb r0_1)⟩]

/-- The proof data: every input window keeps its block, the output window takes `out0_2` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

/-- The body writes no input window: what it finds in one is the block it leaves there. -/
theorem before0 (c : Dev nD) (w : Fin 3) (hw : w ≠ 2) (t : Fin cfg0.N) (d) : (dat0 V c).before w t d = (dat0 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out0_2` of them. -/
theorem body_obligation0 (c : Dev nD) : BodyObligation (dat0 (F := F) V c) (defs₀ (F := F)) Variants.none () Set.univ := fun t => by
  rw [bigSep_W0, bigSep_W0]
  sl_whnfR [defs₀, Defs.onTc]
  simp (disch := decide) only [before0 V c, cc0__transform_kernel_eq_skeleton]
  dsimp only [dat0, Dat.owesAt, Dat.bound]
  unfold cc0__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.KernelIdeal.Hand

end
-- ==== Proof.KI.Reg1.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S384x128 := Rect.unit (s := S384x128) ![0, 0] S384x128.size inb_S384x128_S384x128_0_0
abbrev r1_2 : Rect S1x384 := Rect.unit (s := S1x384) ![0, 0] S1x384.size inb_S1x384_S1x384_0_0

/-- The output block: the gated update of the six input blocks, written through the whole rectangle. -/
def out1_6 (xa xb : Vec F S2000x128 .f32) (xc xd : Vec F S384x128 .f32) (xe xf : Vec F S1x384 .f32) : Vec F S2000x128 .f32 :=
  View.canon [⟨r1_0, k1_pay1 (View.ld xb r1_0) (View.ld xa r1_0) (View.ld xc r1_1) (View.ld xd r1_1) (View.ld xe r1_2) (View.ld xf r1_2)⟩]

/-- The proof data: every input window keeps its block, the output window takes `out1_6` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- The body writes no input window: what it finds in one is the block it leaves there. -/
theorem before1 (c : Dev nD) (w : Fin 7) (hw : w ≠ 6) (t : Fin cfg1.N) (d) : (dat1 V c).before w t d = (dat1 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out1_6` of them. -/
theorem body_obligation1 (c : Dev nD) : BodyObligation (dat1 (F := F) V c) (defs₀ (F := F)) Variants.none () Set.univ := fun t => by
  rw [bigSep_W1, bigSep_W1]
  sl_whnfR [defs₀, Defs.onTc]
  simp (disch := decide) only [before1 V c, cc1__gru_kernel_eq_skeleton]
  dsimp only [dat1, Dat.owesAt, Dat.bound]
  unfold cc1__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.KernelIdeal.Hand

end
-- ==== Proof.KI.Reg2.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

/-- The output block: one write over the whole block of the product of the two input blocks. -/
def out2_2 (xa : Vec F S2000x128 .f32) (xb : Vec F S128x128 .f32) : Vec F S2000x128 .f32 :=
  View.canon [⟨r2_0, k2_pay1 (View.ld xa r2_0) (View.ld xb r2_1)⟩]

/-- The proof data: every input window keeps its block, the output window takes `out2_2` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem after2_2 (c : Dev nD) (t : Fin cfg2.N) : (dat2 V c).after 2 t = out2_2 (iblk2 V c 0 t) (iblk2 V c 1 t) := by dsimp only [dat2]

/-- The body writes no input window: what it finds in one is the block it leaves there. -/
theorem before2 (c : Dev nD) (w : Fin 3) (hw : w ≠ 2) (t : Fin cfg2.N) (d) : (dat2 V c).before w t d = (dat2 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out2_2` of them. -/
theorem body_obligation2 (c : Dev nD) : BodyObligation (dat2 (F := F) V c) (defs₀ (F := F)) Variants.none () Set.univ := fun t => by
  rw [bigSep_W2, bigSep_W2]
  sl_whnfR [defs₀, Defs.onTc]
  simp (disch := decide) only [before2 V c, cc2__transform_kernel_eq_skeleton]
  dsimp only [dat2, Dat.owesAt, Dat.bound]
  unfold cc2__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.KernelIdeal.Hand

end
-- ==== Proof.KI.Reg3.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S384x128 := Rect.unit (s := S384x128) ![0, 0] S384x128.size inb_S384x128_S384x128_0_0
abbrev r3_2 : Rect S1x384 := Rect.unit (s := S1x384) ![0, 0] S1x384.size inb_S1x384_S1x384_0_0

/-- The output block: the gated update of the six input blocks, written through the whole rectangle. -/
def out3_6 (xa xb : Vec F S2000x128 .f32) (xc xd : Vec F S384x128 .f32) (xe xf : Vec F S1x384 .f32) : Vec F S2000x128 .f32 :=
  View.canon [⟨r3_0, k3_pay1 (View.ld xb r3_0) (View.ld xa r3_0) (View.ld xc r3_1) (View.ld xd r3_1) (View.ld xe r3_2) (View.ld xf r3_2)⟩]

/-- The proof data: every input window keeps its block, the output window takes `out3_6` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- The body writes no input window: what it finds in one is the block it leaves there. -/
theorem before3 (c : Dev nD) (w : Fin 7) (hw : w ≠ 6) (t : Fin cfg3.N) (d) : (dat3 V c).before w t d = (dat3 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out3_6` of them. -/
theorem body_obligation3 (c : Dev nD) : BodyObligation (dat3 (F := F) V c) (defs₀ (F := F)) Variants.none () Set.univ := fun t => by
  rw [bigSep_W3, bigSep_W3]
  sl_whnfR [defs₀, Defs.onTc]
  simp (disch := decide) only [before3 V c, cc3__gru_kernel_eq_skeleton]
  dsimp only [dat3, Dat.owesAt, Dat.bound]
  unfold cc3__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.KernelIdeal.Hand

end
-- ==== Proof.KI.Reg4.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

/-- The output block: one write over the whole block of the product of the two input blocks. -/
def out4_2 (xa : Vec F S2000x128 .f32) (xb : Vec F S128x128 .f32) : Vec F S2000x128 .f32 :=
  View.canon [⟨r4_0, k4_pay1 (View.ld xa r4_0) (View.ld xb r4_1)⟩]

/-- The proof data: every input window keeps its block, the output window takes `out4_2` of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem after4_2 (c : Dev nD) (t : Fin cfg4.N) : (dat4 V c).after 2 t = out4_2 (iblk4 V c 0 t) (iblk4 V c 1 t) := by dsimp only [dat4]

/-- The body writes no input window: what it finds in one is the block it leaves there. -/
theorem before4 (c : Dev nD) (w : Fin 3) (hw : w ≠ 2) (t : Fin cfg4.N) (d) : (dat4 V c).before w t d = (dat4 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out4_2` of them. -/
theorem body_obligation4 (c : Dev nD) : BodyObligation (dat4 (F := F) V c) (defs₀ (F := F)) Variants.none () Set.univ := fun t => by
  rw [bigSep_W4, bigSep_W4]
  sl_whnfR [defs₀, Defs.onTc]
  simp (disch := decide) only [before4 V c, cc4__transform_kernel_eq_skeleton]
  dsimp only [dat4, Dat.owesAt, Dat.bound]
  unfold cc4__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.KernelIdeal.Hand

end
-- ==== Proof.KI.Reg5.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S384x128 := Rect.unit (s := S384x128) ![0, 0] S384x128.size inb_S384x128_S384x128_0_0
abbrev r5_2 : Rect S1x384 := Rect.unit (s := S1x384) ![0, 0] S1x384.size inb_S1x384_S1x384_0_0

/-- The output block: the gated update of the six input blocks, written through the whole rectangle. -/
def out5_6 (xa xb : Vec F S2000x128 .f32) (xc xd : Vec F S384x128 .f32) (xe xf : Vec F S1x384 .f32) : Vec F S2000x128 .f32 :=
  View.canon [⟨r5_0, k5_pay1 (View.ld xb r5_0) (View.ld xa r5_0) (View.ld xc r5_1) (View.ld xd r5_1) (View.ld xe r5_2) (View.ld xf r5_2)⟩]

/-- The proof data: every input window keeps its block, the output window takes `out5_6` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- The body writes no input window: what it finds in one is the block it leaves there. -/
theorem before5 (c : Dev nD) (w : Fin 7) (hw : w ≠ 6) (t : Fin cfg5.N) (d) : (dat5 V c).before w t d = (dat5 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out5_6` of them. -/
theorem body_obligation5 (c : Dev nD) : BodyObligation (dat5 (F := F) V c) (defs₀ (F := F)) Variants.none () Set.univ := fun t => by
  rw [bigSep_W5, bigSep_W5]
  sl_whnfR [defs₀, Defs.onTc]
  simp (disch := decide) only [before5 V c, cc5__gru_kernel_eq_skeleton]
  dsimp only [dat5, Dat.owesAt, Dat.bound]
  unfold cc5__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.KernelIdeal.Hand

end
-- ==== Proof.KI.Reg6.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t` of the arrays `V`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-- The output block: one write over the whole block of the product of the two input blocks. -/
def out6_2 (xa : Vec F S2000x128 .f32) (xb : Vec F S128x128 .f32) : Vec F S2000x128 .f32 :=
  View.canon [⟨r6_0, k6_pay1 (View.ld xa r6_0) (View.ld xb r6_1)⟩]

/-- The proof data: every input window keeps its block, the output window takes `out6_2` of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem after6_2 (c : Dev nD) (t : Fin cfg6.N) : (dat6 V c).after 2 t = out6_2 (iblk6 V c 0 t) (iblk6 V c 1 t) := by dsimp only [dat6]

/-- The body writes no input window: what it finds in one is the block it leaves there. -/
theorem before6 (c : Dev nD) (w : Fin 3) (hw : w ≠ 2) (t : Fin cfg6.N) (d) : (dat6 V c).before w t d = (dat6 V c).after w t := by
  fin_cases w <;> first
    | exact Dat.before_in_eq_fetched _ _ rfl (fun _ => rfl) (fun _ _ _ => rfl) (fun _ => rfl) t d
    | exact absurd rfl hw

/-- The body reads its three windows whole and writes the last whole: the inputs stay, the output becomes `out6_2` of them. -/
theorem body_obligation6 (c : Dev nD) : BodyObligation (dat6 (F := F) V c) (defs₀ (F := F)) Variants.none () Set.univ := fun t => by
  rw [bigSep_W6, bigSep_W6]
  sl_whnfR [defs₀, Defs.onTc]
  simp (disch := decide) only [before6 V c, cc6__transform_kernel_eq_skeleton]
  dsimp only [dat6, Dat.owesAt, Dat.bound]
  unfold cc6__transform_kernel_skel owns
  iintro ⟨HΦ, Ho, ⟨%_, %ga, %ha, Ha⟩, ⟨%_, %gb, %hb, Hb⟩, ⟨%_, %gc, -, Hc⟩⟩
  sl_exec
  sl_step
  iframe HΦ Ho
  isplitl [Ha]; · iexists ga; iframe %ha Ha
  isplitl [Hb]; · iexists gb; iframe %hb Hb
  iexists _; iframe Hc
  ipureintro
  rw [← ha, ← hb]
  exact View.read_writes_eq_canon _ _ _ (View.cover_of_tiled _ S2000x128.size (by rfl))

end Cert.KernelIdeal.Hand

end
-- ==== Proof.KI.Reg7.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at point `t`, read off the contents `V` the region is entered with. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x128 := Rect.unit (s := S2000x128) ![0, 0] S2000x128.size inb_S2000x128_S2000x128_0_0
abbrev r7_1 : Rect S384x128 := Rect.unit (s := S384x128) ![0, 0] S384x128.size inb_S384x128_S384x128_0_0
abbrev r7_2 : Rect S1x384 := Rect.unit (s := S1x384) ![0, 0] S1x384.size inb_S1x384_S1x384_0_0

/-- The output block: the gated update of the six input blocks, written through the whole rectangle. -/
def out7_6 (xa xb : Vec F S2000x128 .f32) (xc xd : Vec F S384x128 .f32) (xe xf : Vec F S1x384 .f32) : Vec F S2000x128 .f32 :=
  View.canon [⟨r7_0, k7_pay1 (View.ld xb r7_0) (View.ld xa r7_0) (View.ld xc r7_1) (View.ld xd r7_1) (View.ld xe r7_2) (View.ld xf r7_2)⟩]

/-- The proof data: every input window keeps its block, the output window takes `out7_6` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- The body writes no input window: what it finds in one is the block it leaves there. -/
theorem before7 (c : Dev nD) (w : Fin 7) (hw : w ≠ 6) (t : Fin cfg7.N) (d) : (dat7 V c).before w t d = (dat7 V c).after w t := by
  fin_cases w <;> first
    | exact Dat.before_in_eq_fetched _ _ rfl (fun _ => rfl) (fun _ _ _ => rfl) (fun _ => rfl) t d
    | exact absurd rfl hw

/-- The body reads its seven windows whole and writes the last whole: the inputs stay, the output becomes `out7_6` of them. -/
theorem body_obligation7 (c : Dev nD) : BodyObligation (dat7 (F := F) V c) (defs₀ (F := F)) Variants.none () Set.univ := fun t => by
  rw [bigSep_W7, bigSep_W7]
  sl_whnfR [defs₀, Defs.onTc]
  simp (disch := decide) only [before7 V c, cc7__gru_kernel_eq_skeleton]
  dsimp only [dat7, Dat.owesAt, Dat.bound]
  unfold cc7__gru_kernel_skel owns
  iintro ⟨HΦ, Ho, ⟨%_, %ga, %ha, Ha⟩, ⟨%_, %gb, %hb, Hb⟩, ⟨%_, %gc, %hc, Hc⟩, ⟨%_, %gd, %hd, Hd⟩, ⟨%_, %ge, %he, He⟩, ⟨%_, %gf, %hf, Hf⟩, ⟨%_, %gg, -, Hg⟩⟩
  sl_exec
  sl_step
  iframe HΦ Ho
  isplitl [Ha]; · iexists ga; iframe %ha Ha
  isplitl [Hb]; · iexists gb; iframe %hb Hb
  isplitl [Hc]; · iexists gc; iframe %hc Hc
  isplitl [Hd]; · iexists gd; iframe %hd Hd
  isplitl [He]; · iexists ge; iframe %he He
  isplitl [Hf]; · iexists gf; iframe %hf Hf
  iexists _; iframe Hg
  ipureintro
  rw [← ha, ← hb, ← hc, ← hd, ← he, ← hf]
  exact View.read_writes_eq_canon _ _ _ (View.cover_of_tiled _ S2000x128.size (by rfl))

end Cert.KernelIdeal.Hand

end
-- ==== Proof.KI.Reg8Runs.lean ====
import proofs.«402922_j42726334660740_1_alg».proof.Proof.Gen.KernelIdeal.Launch
import proofs.«402922_j42726334660740_1_alg».proof.Proof.Gen.KernelIdeal.Skeleton
import proofs.«402922_j42726334660740_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, as a function of the array's contents on entry. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 49 :=
  (by decide +kernel : ∀ t : Fin grid8.N, cond8_1 (grid8.coords t) ↔ t.val = 49)

theorem liveAt8_0 : ∀ t : Fin cfg8.N, cfg8.idle 0 (grid8.coords t) = false := by decide +kernel
theorem liveAt8_1 : ∀ t : Fin cfg8.N, cfg8.idle 1 (grid8.coords t) = false := by decide +kernel
theorem idle8_2 : ∀ t : Fin cfg8.N, ¬cond8_1 (grid8.coords t) → cfg8.idle 2 (grid8.coords t) = true := by decide +kernel
theorem noFlush8_2 : ∀ t : Fin cfg8.N, ¬cond8_1 (grid8.coords t) → (cfg8.win 2).flush t = false := by decide +kernel
theorem live8_2 : ∀ t : Fin cfg8.N, cond8_1 (grid8.coords t) → cfg8.idle 2 (grid8.coords t) = false := by decide +kernel

abbrev ms8_0 (t : Fin cfg8.N) : Memref sig .tc .vmem S2000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2000x1 .i32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S64x128 .f32 := win8_2.stage (cfg8.slots t 2)
abbrev hs8_2 (t : Fin cfg8.N) : (ms8_2 t).IsWhole := hstage8_2 ((cfg8.slots t 2).cast nbuf8_2)
abbrev scM8_0 : Memref sig .tc .vmem S64x128 .f32 := Memref.whole cc8_scratch0

theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8_0, owns_whole]; try rfl

theorem off2_zero : (![0, 0] : Fin 2 → ℕ) = fun _ => 0 := by
  funext a; revert a; decide

/-- A store through the whole rectangle, made last, reads back as its payload whatever came before. -/
theorem read_writes_whole {Val : EltTy → Type} [∀ e, Nonempty (Val e)] {σ : RefSig} {κ : Kind} {sp : Space} {S : Shape} {e : EltTy}
    (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ fun y => ⟨_, List.mem_cons_self .., View.mem_set_unit_zero h inb y⟩,
    View.canon_cons_unit_zero h]

end Cert.KernelIdeal.Hand

end
-- ==== Proof.KI.Reg8RunA.lean ====
import proofs.«402922_j42726334660740_1_alg».proof.Proof.KI.Reg8Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point 0: the accumulator is zeroed, then updated by the two blocks. -/
theorem run8_A (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : cond8_0 i) (hc1 : ¬cond8_1 i)
    (x0 : Vec F S2000x128 .f32) (x1 : Vec F S2000x1 .i32) (xi2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k8_pay2 x0 x1 k8_pay1)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_whole (S := S64x128) _ _ off2_zero, View.readCov_unit_zero (S := S64x128) _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.KernelIdeal.Hand

end
-- ==== Proof.KI.Reg8RunB.lean ====
import proofs.«402922_j42726334660740_1_alg».proof.Proof.KI.Reg8RunA

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Points 1 … 48: the accumulator is updated by the two blocks. -/
theorem run8_B (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : ¬cond8_0 i) (hc1 : ¬cond8_1 i)
    (x0 : Vec F S2000x128 .f32) (x1 : Vec F S2000x1 .i32) (xi2 xs0 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs0
        ∗ (iprop(owns (c : Thread nD τ) arg1 fullShare x0 ∗ owns (c : Thread nD τ) arg2 fullShare x1 ∗ owns (c : Thread nD τ) arg3 fullShare xi2 ∗ owns (c : Thread nD τ) arg4 fullShare (k8_pay2 x0 x1 xs0)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [read_writes_whole (S := S64x128) _ _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.KernelIdeal.Hand

end
-- ==== Proof.KI.Reg8RunC.lean ====
import proofs.«402922_j42726334660740_1_alg».proof.Proof.KI.Reg8RunB

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point 49: the accumulator is updated by the two blocks, then copied to the output. -/
theorem run8_C (c : Dev nD) (i : grid8.Coords) (arg1 : Memref sig .tc .vmem S2000x128 .f32) (harg1 : arg1.IsWhole) (arg2 : Memref sig .tc .vmem S2000x1 .i32) (harg2 : arg2.IsWhole) (arg3 : Memref sig .tc .vmem S64x128 .f32) (harg3 : arg3.IsWhole) (arg4 : Memref sig .tc .vmem S64x128 .f32) (harg4 : arg4.IsWhole) (hc0 : ¬cond8_0 i) (hc1 : cond8_1 i)
    (x0 : Vec F S2000x128 .f32) (x1 : Vec F S2000x1 .i32) (xs0 : Vec F S64x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs0
        ∗ (iprop(owns (c : Thread nD τ) arg1 fullShare x0 ∗ owns (c : Thread nD τ) arg2 fullShare x1 ∗ owns (c : Thread nD τ) arg3 fullShare (k8_pay2 x0 x1 xs0) ∗ owns (c : Thread nD τ) arg4 fullShare (k8_pay2 x0 x1 xs0)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_writes_whole (S := S64x128) _ _ off2_zero, View.readCov_unit_zero (S := S64x128) _ off2_zero]
    simp only [View.readAt_eq_ld, harg1.read_unread, harg2.read_unread, harg4.read_unread, View.ld_unit_zero (S := S2000x128) off2_zero, View.ld_unit_zero (S := S2000x1) off2_zero, View.ld_unit_zero (S := S64x128) off2_zero]
  iexists _; isplitr
  swap; · iexact HS0
  ipureintro
  sl_unfold_words
  rw [read_writes_whole (S := S64x128) _ _ off2_zero]
  simp only [View.readAt_eq_ld, harg1.read_unread, harg2.read_unread, harg4.read_unread, View.ld_unit_zero (S := S2000x128) off2_zero, View.ld_unit_zero (S := S2000x1) off2_zero, View.ld_unit_zero (S := S64x128) off2_zero]

end Cert.KernelIdeal.Hand

end
-- ==== Proof.KI.Reg8.lean ====
import proofs.«402922_j42726334660740_1_alg».proof.Proof.KI.Reg8RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Output and accumulator after point `n`: the update by the point's two blocks of the previous accumulator, zero before point 0. -/
def outsAt8 (c : Dev nD) : (n : ℕ) → n < cfg8.N → Vec F S64x128 .f32 × Vec F S64x128 .f32
  | 0, hn => (fun s => (s, s)) (k8_pay2 (iblk8 V c 0 ⟨0, hn⟩) (iblk8 V c 1 ⟨0, hn⟩) k8_pay1)
  | n + 1, hn => (fun s => (s, s)) (k8_pay2 (iblk8 V c 0 ⟨n + 1, hn⟩) (iblk8 V c 1 ⟨n + 1, hn⟩) (outsAt8 c n (Nat.lt_of_succ_lt hn)).2)

theorem sc8_zero (c : Dev nD) (h0 : 0 < cfg8.N) :
    (outsAt8 V c 0 h0).2 = k8_pay2 (iblk8 V c 0 ⟨0, h0⟩) (iblk8 V c 1 ⟨0, h0⟩) k8_pay1 := rfl

theorem sc8_succ (c : Dev nD) (n : ℕ) (hn : n + 1 < cfg8.N) :
    (outsAt8 V c (n + 1) hn).2 = k8_pay2 (iblk8 V c 0 ⟨n + 1, hn⟩) (iblk8 V c 1 ⟨n + 1, hn⟩) (outsAt8 V c n (Nat.lt_of_succ_lt hn)).2 := rfl

theorem out8_eq (c : Dev nD) : ∀ n h, (outsAt8 V c n h).1 = (outsAt8 V c n h).2
  | 0, _ => rfl
  | _ + 1, _ => rfl

theorem out8_last (c : Dev nD) (h : 49 < cfg8.N) : (outsAt8 V c 49 h).1 = (outsAt8 V c 49 h).2 := out8_eq V c 49 h

theorem acc8_zero (c : Dev nD) (t : Fin cfg8.N) (h0 : t.val = 0) :
    (outsAt8 V c t.val t.isLt).2 = k8_pay2 (iblk8 V c 0 t) (iblk8 V c 1 t) k8_pay1 := by
  obtain ⟨n, hn⟩ := t
  cases n with
  | zero => rfl
  | succ n => exact absurd h0 (Nat.succ_ne_zero n)

theorem acc8_pos (c : Dev nD) (t : Fin cfg8.N) (h0 : ¬t.val = 0) :
    (outsAt8 V c t.val t.isLt).2 = k8_pay2 (iblk8 V c 0 t) (iblk8 V c 1 t) (outsAt8 V c (t.val - 1) (Nat.lt_of_le_of_lt (Nat.sub_le _ _) t.isLt)).2 := by
  obtain ⟨n, hn⟩ := t
  cases n with
  | zero => exact absurd rfl h0
  | succ n => rfl

/-- The invariant before position `n`: the accumulator holds what point `n - 1` left. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => (outsAt8 V c t.val t.isLt).1
  Φ t := PhiS8 V c t.val (Nat.le_of_lt_succ t.isLt)
  q _ := fullShare
  owed _ := 0

theorem after8_2 (c : Dev nD) (t : Fin cfg8.N) : (dat8 V c).after 2 t = (outsAt8 V c t.val t.isLt).1 := by dsimp only [dat8]

theorem before8_0 (c : Dev nD) (t : Fin cfg8.N) (d) : (dat8 V c).before 0 t d = iblk8 V c 0 t :=
  before8_0_of V (dat8 V c) rfl (fun _ => rfl) t d
theorem before8_1 (c : Dev nD) (t : Fin cfg8.N) (d) : (dat8 V c).before 1 t d = iblk8 V c 1 t :=
  before8_1_of V (dat8 V c) rfl (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

/-- Each point runs its case with the accumulator lent by the invariant and returned updated. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl,
    show (dat8 V c).Φ t.succ = iprop(iprop(owns (c : Thread nD τ) scM8_0 fullShare ((outsAt8 V c t.val t.isLt).2) ∗ Pipeline.scopedRestBut (Ix := Unit) (Name := ℕ) (U := UR sig nD τ) (Lvl := ℕ) (Val := Elt F) spec8 c [cc8_scratch0]) ∗ (∃ r, prngReg c r)) from rfl,
    show (dat8 V c).Φ t.castSucc = PhiS8 V c t.val (Nat.le_of_lt t.isLt) from rfl,
    show (dat8 V c).leavesExact 0 t = owns (c : Thread nD τ) (ms8_0 t) fullShare (iblk8 V c 0 t) from by
      unfold Dat.leavesExact; rw [liveAt8_0 t]; rfl,
    show (dat8 V c).leavesExact 1 t = owns (c : Thread nD τ) (ms8_1 t) fullShare (iblk8 V c 1 t) from by
      unfold Dat.leavesExact; rw [liveAt8_1 t]; rfl]
  have hN : t.val < 50 := lt_of_lt_of_eq t.isLt (show cfg8.N = 50 from N_8)
  by_cases h1 : t.val = 49
  · have h0 : ¬t.val = 0 := by omega
    have hc1 := (hcond8_1 t).mpr h1
    rw [show (dat8 V c).leavesExact 2 t = owns (c : Thread nD τ) (ms8_2 t) fullShare (outsAt8 V c t.val t.isLt).1 from by
      unfold Dat.leavesExact; rw [live8_2 t hc1]; rfl]
    rw [out8_eq, acc8_pos V c t h0, PhiS8_pos V c _ _ h0]
    iintro ⟨⟨⟨HS0, Hr⟩, Hg⟩, Ho, ⟨%d0, H0⟩, ⟨%d1, H1⟩, ⟨%d2, H2⟩⟩
    iapply (run8_C c (grid8.coords t) _ _ _ _ _ _ _ _ (fun h => h0 ((hcond8_0 t).mp h)) hc1 (iblk8 V c 0 t) (iblk8 V c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    iexact H2
  · have hc1 : ¬cond8_1 (grid8.coords t) := fun h => h1 ((hcond8_1 t).mp h)
    rw [Dat.leavesExact_idle (dat8 V c) 2 t (idle8_2 t hc1) (noFlush8_2 t hc1)]
    by_cases h0 : t.val = 0
    · rw [acc8_zero V c t h0, show PhiS8 V c t.val (Nat.le_of_lt t.isLt) = Pipeline.ΦA spec8 c from by
        obtain ⟨n, hn⟩ := t; subst h0; rfl, PhiA8_eq]
      iintro ⟨⟨⟨HS0, Hr⟩, Hg⟩, Ho, ⟨%d0, H0⟩, ⟨%d1, H1⟩, ⟨%d2, H2⟩⟩
      iapply (run8_A c (grid8.coords t) _ _ _ _ _ _ _ _ ((hcond8_0 t).mpr h0) hc1 (iblk8 V c 0 t) (iblk8 V c 1 t) _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [acc8_pos V c t h0, PhiS8_pos V c _ _ h0]
      iintro ⟨⟨⟨HS0, Hr⟩, Hg⟩, Ho, ⟨%d0, H0⟩, ⟨%d1, H1⟩, ⟨%d2, H2⟩⟩
      iapply (run8_B c (grid8.coords t) _ _ _ _ _ _ _ _ (fun h => h0 ((hcond8_0 t).mp h)) hc1 (iblk8 V c 0 t) (iblk8 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 :=
  Idealize.SL.BI.Entails.refl _

theorem hout8 (c : Dev nD) : (dat8 V c).Φ (Fin.last cfg8.N) ⊢ Pipeline.ΦA spec8 c := by
  rw [show (dat8 V c).Φ (Fin.last cfg8.N) = PhiS8 V c cfg8.N (Nat.le_refl _) from rfl,
    PhiS8_pos V c _ _ (by rw [show cfg8.N = 50 from N_8]; decide), PhiA8_eq]
  iintro ⟨⟨HS0, Hr⟩, Hg⟩
  isplitl [HS0 Hr]
  · isplitl [HS0]
    · iexists _; iexact HS0
    iexact Hr
  iexact Hg

end Cert.KernelIdeal.Hand

end
-- ==== Proof.KI.Stages.lean ====
import proofs.«402922_j42726334660740_1_alg».proof.Proof.KI.RegOf
import proofs.«402922_j42726334660740_1_alg».proof.Proof.KI.Reg0
import proofs.«402922_j42726334660740_1_alg».proof.Proof.KI.Reg1
import proofs.«402922_j42726334660740_1_alg».proof.Proof.KI.Reg2
import proofs.«402922_j42726334660740_1_alg».proof.Proof.KI.Reg3
import proofs.«402922_j42726334660740_1_alg».proof.Proof.KI.Reg4
import proofs.«402922_j42726334660740_1_alg».proof.Proof.KI.Reg5
import proofs.«402922_j42726334660740_1_alg».proof.Proof.KI.Reg6
import proofs.«402922_j42726334660740_1_alg».proof.Proof.KI.Reg7
import proofs.«402922_j42726334660740_1_alg».proof.Proof.KI.Reg8

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev E0 (c : Dev nD) : Valuation τ sig (Elt F) := fun b => m (c, b)

abbrev E1 (c : Dev nD) : Valuation τ sig (Elt F) := StableHlo.after hostOps0 (E0 m c)

abbrev T1 (c : Dev nD) (b : Ref sig .tc) : Buf (Elt F) ((c : Thread nD τ).loc b) := E1 m c b

def o2 (c : Dev nD) : Buf (Elt F) ((c : Thread nD τ).loc main_v8) := (dat0 (T1 m) c).arrAt 2 cfg0.N

def E2 (c : Dev nD) : Valuation τ sig (Elt F) := Function.update (E1 m c) main_v8 (o2 m c)

abbrev E3 (c : Dev nD) : Valuation τ sig (Elt F) := StableHlo.after hostOps1 (E2 m c)

abbrev T3 (c : Dev nD) (b : Ref sig .tc) : Buf (Elt F) ((c : Thread nD τ).loc b) := E3 m c b

def o4 (c : Dev nD) : Buf (Elt F) ((c : Thread nD τ).loc main_v19) := (dat1 (T3 m) c).arrAt 6 cfg1.N

def E4 (c : Dev nD) : Valuation τ sig (Elt F) := Function.update (E3 m c) main_v19 (o4 m c)

abbrev E5 (c : Dev nD) : Valuation τ sig (Elt F) := StableHlo.after hostOps2 (E4 m c)

abbrev T5 (c : Dev nD) (b : Ref sig .tc) : Buf (Elt F) ((c : Thread nD τ).loc b) := E5 m c b

def o6 (c : Dev nD) : Buf (Elt F) ((c : Thread nD τ).loc main_v22) := (dat2 (T5 m) c).arrAt 2 cfg2.N

def E6 (c : Dev nD) : Valuation τ sig (Elt F) := Function.update (E5 m c) main_v22 (o6 m c)

abbrev E7 (c : Dev nD) : Valuation τ sig (Elt F) := StableHlo.after hostOps3 (E6 m c)

abbrev T7 (c : Dev nD) (b : Ref sig .tc) : Buf (Elt F) ((c : Thread nD τ).loc b) := E7 m c b

def o8 (c : Dev nD) : Buf (Elt F) ((c : Thread nD τ).loc main_v33) := (dat3 (T7 m) c).arrAt 6 cfg3.N

def E8 (c : Dev nD) : Valuation τ sig (Elt F) := Function.update (E7 m c) main_v33 (o8 m c)

abbrev E9 (c : Dev nD) : Valuation τ sig (Elt F) := StableHlo.after hostOps4 (E8 m c)

abbrev T9 (c : Dev nD) (b : Ref sig .tc) : Buf (Elt F) ((c : Thread nD τ).loc b) := E9 m c b

def o10 (c : Dev nD) : Buf (Elt F) ((c : Thread nD τ).loc main_v36) := (dat4 (T9 m) c).arrAt 2 cfg4.N

def E10 (c : Dev nD) : Valuation τ sig (Elt F) := Function.update (E9 m c) main_v36 (o10 m c)

abbrev E11 (c : Dev nD) : Valuation τ sig (Elt F) := StableHlo.after hostOps5 (E10 m c)

abbrev T11 (c : Dev nD) (b : Ref sig .tc) : Buf (Elt F) ((c : Thread nD τ).loc b) := E11 m c b

def o12 (c : Dev nD) : Buf (Elt F) ((c : Thread nD τ).loc main_v47) := (dat5 (T11 m) c).arrAt 6 cfg5.N

def E12 (c : Dev nD) : Valuation τ sig (Elt F) := Function.update (E11 m c) main_v47 (o12 m c)

abbrev E13 (c : Dev nD) : Valuation τ sig (Elt F) := StableHlo.after hostOps6 (E12 m c)

abbrev T13 (c : Dev nD) (b : Ref sig .tc) : Buf (Elt F) ((c : Thread nD τ).loc b) := E13 m c b

def o14 (c : Dev nD) : Buf (Elt F) ((c : Thread nD τ).loc main_v50) := (dat6 (T13 m) c).arrAt 2 cfg6.N

def E14 (c : Dev nD) : Valuation τ sig (Elt F) := Function.update (E13 m c) main_v50 (o14 m c)

abbrev E15 (c : Dev nD) : Valuation τ sig (Elt F) := StableHlo.after hostOps7 (E14 m c)

abbrev T15 (c : Dev nD) (b : Ref sig .tc) : Buf (Elt F) ((c : Thread nD τ).loc b) := E15 m c b

def o16 (c : Dev nD) : Buf (Elt F) ((c : Thread nD τ).loc main_v61) := (dat7 (T15 m) c).arrAt 6 cfg7.N

def E16 (c : Dev nD) : Valuation τ sig (Elt F) := Function.update (E15 m c) main_v61 (o16 m c)

abbrev E17 (c : Dev nD) : Valuation τ sig (Elt F) := StableHlo.after hostOps8 (E16 m c)

abbrev T17 (c : Dev nD) (b : Ref sig .tc) : Buf (Elt F) ((c : Thread nD τ).loc b) := E17 m c b

def o18 (c : Dev nD) : Buf (Elt F) ((c : Thread nD τ).loc main_v63) := (dat8 (T17 m) c).arrAt 2 cfg8.N

def E18 (c : Dev nD) : Valuation τ sig (Elt F) := Function.update (E17 m c) main_v63 (o18 m c)

abbrev E19 (c : Dev nD) : Valuation τ sig (Elt F) := StableHlo.after hostOps9 (E18 m c)

def outs : Outs (F := F) := fun J r c => match J with
  | 2 => E2 m c r
  | 4 => E4 m c r
  | 6 => E6 m c r
  | 8 => E8 m c r
  | 10 => E10 m c r
  | 12 => E12 m c r
  | 14 => E14 m c r
  | 16 => E16 m c r
  | 18 => E18 m c r
  | _ => m ((c : Thread nD τ).loc r)

def pdats : (p : Fin 9) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c
  | ⟨7, _⟩ => fun c => dat7 (T15 m) c
  | ⟨8, _⟩ => fun c => dat8 (T17 m) c

/-- Updating by the value that an update at the same place reads back there is that update. -/
private theorem update_readback {α : Type _} [DecidableEq α] {β : α → Type _} {f g : (a : α) → β a} (h : f = g) (a : α) (v : β a) :
    Function.update f a (Function.update g a v a) = Function.update g a v := by rw [Function.update_self, h]

theorem V1_eq (c : Dev nD) : V1 m c = E1 m c := rfl
theorem V2_eq (c : Dev nD) : V2 m (outs m) c = E2 m c := update_readback (V1_eq m c) _ _
theorem V3_eq (c : Dev nD) : V3 m (outs m) c = E3 m c := congrArg (StableHlo.after hostOps1) (V2_eq m c)
theorem V4_eq (c : Dev nD) : V4 m (outs m) c = E4 m c := update_readback (V3_eq m c) _ _
theorem V5_eq (c : Dev nD) : V5 m (outs m) c = E5 m c := congrArg (StableHlo.after hostOps2) (V4_eq m c)
theorem V6_eq (c : Dev nD) : V6 m (outs m) c = E6 m c := update_readback (V5_eq m c) _ _
theorem V7_eq (c : Dev nD) : V7 m (outs m) c = E7 m c := congrArg (StableHlo.after hostOps3) (V6_eq m c)
theorem V8_eq (c : Dev nD) : V8 m (outs m) c = E8 m c := update_readback (V7_eq m c) _ _
theorem V9_eq (c : Dev nD) : V9 m (outs m) c = E9 m c := congrArg (StableHlo.after hostOps4) (V8_eq m c)
theorem V10_eq (c : Dev nD) : V10 m (outs m) c = E10 m c := update_readback (V9_eq m c) _ _
theorem V11_eq (c : Dev nD) : V11 m (outs m) c = E11 m c := congrArg (StableHlo.after hostOps5) (V10_eq m c)
theorem V12_eq (c : Dev nD) : V12 m (outs m) c = E12 m c := update_readback (V11_eq m c) _ _
theorem V13_eq (c : Dev nD) : V13 m (outs m) c = E13 m c := congrArg (StableHlo.after hostOps6) (V12_eq m c)
theorem V14_eq (c : Dev nD) : V14 m (outs m) c = E14 m c := update_readback (V13_eq m c) _ _
theorem V15_eq (c : Dev nD) : V15 m (outs m) c = E15 m c := congrArg (StableHlo.after hostOps7) (V14_eq m c)
theorem V16_eq (c : Dev nD) : V16 m (outs m) c = E16 m c := update_readback (V15_eq m c) _ _
theorem V17_eq (c : Dev nD) : V17 m (outs m) c = E17 m c := congrArg (StableHlo.after hostOps8) (V16_eq m c)
theorem V18_eq (c : Dev nD) : V18 m (outs m) c = E18 m c := update_readback (V17_eq m c) _ _
theorem V19_eq (c : Dev nD) : V19 m (outs m) c = E19 m c := congrArg (StableHlo.after hostOps9) (V18_eq m c)

end Cert.KernelIdeal.Hand

end
-- ==== Proof.KI.Run.lean ====
import proofs.«402922_j42726334660740_1_alg».proof.Proof.KI.Stages

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal valuations are held alike. -/
private theorem held_eq {c : Dev nD} {V E : Valuation τ sig (Elt F)} (h : V = E) :
    iprop(StableHlo.held (c : Thread nD τ) (Pipeline.ucRefs τ sig) V ∗ Rd c) ⊢ (iprop(StableHlo.held (c : Thread nD τ) (Pipeline.ucRefs τ sig) E ∗ Rd c) : sProp 𝕄) := h ▸ .rfl

def reg0 : Pipeline.RegionSeg (pcfgs (F := F)) adm (pdats m) () defs₀ Variants.none L0 lv0 0 :=
  have h := exit_of_update (pdats m) 0 launch0 (E1 m) (E2 m) 2 (by decide) (fun _ _ => rfl) (fun _ => rfl)
  regOf (pdats m) 0 launch0 (E1 m) (E2 m) (fun c => body_obligation0 (T1 m) c)
    (fun _ _ => rfl) (fun _ _ => rfl) (fun _ _ => rfl) (fun _ => .rfl) (fun _ => .rfl) (fun _ _ => rfl) h.1 h.2
def reg1 : Pipeline.RegionSeg (pcfgs (F := F)) adm (pdats m) () defs₀ Variants.none L0 lv0 1 :=
  have h := exit_of_update (pdats m) 1 launch1 (E3 m) (E4 m) 6 (by decide) (fun _ _ => rfl) (fun _ => rfl)
  regOf (pdats m) 1 launch1 (E3 m) (E4 m) (fun c => body_obligation1 (T3 m) c)
    (fun _ _ => rfl) (fun _ _ => rfl) (fun _ _ => rfl) (fun _ => .rfl) (fun _ => .rfl) (fun _ _ => rfl) h.1 h.2
def reg2 : Pipeline.RegionSeg (pcfgs (F := F)) adm (pdats m) () defs₀ Variants.none L0 lv0 2 :=
  have h := exit_of_update (pdats m) 2 launch2 (E5 m) (E6 m) 2 (by decide) (fun _ _ => rfl) (fun _ => rfl)
  regOf (pdats m) 2 launch2 (E5 m) (E6 m) (fun c => body_obligation2 (T5 m) c)
    (fun _ _ => rfl) (fun _ _ => rfl) (fun _ _ => rfl) (fun _ => .rfl) (fun _ => .rfl) (fun _ _ => rfl) h.1 h.2
def reg3 : Pipeline.RegionSeg (pcfgs (F := F)) adm (pdats m) () defs₀ Variants.none L0 lv0 3 :=
  have h := exit_of_update (pdats m) 3 launch3 (E7 m) (E8 m) 6 (by decide) (fun _ _ => rfl) (fun _ => rfl)
  regOf (pdats m) 3 launch3 (E7 m) (E8 m) (fun c => body_obligation3 (T7 m) c)
    (fun _ _ => rfl) (fun _ _ => rfl) (fun _ _ => rfl) (fun _ => .rfl) (fun _ => .rfl) (fun _ _ => rfl) h.1 h.2
def reg4 : Pipeline.RegionSeg (pcfgs (F := F)) adm (pdats m) () defs₀ Variants.none L0 lv0 4 :=
  have h := exit_of_update (pdats m) 4 launch4 (E9 m) (E10 m) 2 (by decide) (fun _ _ => rfl) (fun _ => rfl)
  regOf (pdats m) 4 launch4 (E9 m) (E10 m) (fun c => body_obligation4 (T9 m) c)
    (fun _ _ => rfl) (fun _ _ => rfl) (fun _ _ => rfl) (fun _ => .rfl) (fun _ => .rfl) (fun _ _ => rfl) h.1 h.2
def reg5 : Pipeline.RegionSeg (pcfgs (F := F)) adm (pdats m) () defs₀ Variants.none L0 lv0 5 :=
  have h := exit_of_update (pdats m) 5 launch5 (E11 m) (E12 m) 6 (by decide) (fun _ _ => rfl) (fun _ => rfl)
  regOf (pdats m) 5 launch5 (E11 m) (E12 m) (fun c => body_obligation5 (T11 m) c)
    (fun _ _ => rfl) (fun _ _ => rfl) (fun _ _ => rfl) (fun _ => .rfl) (fun _ => .rfl) (fun _ _ => rfl) h.1 h.2
def reg6 : Pipeline.RegionSeg (pcfgs (F := F)) adm (pdats m) () defs₀ Variants.none L0 lv0 6 :=
  have h := exit_of_update (pdats m) 6 launch6 (E13 m) (E14 m) 2 (by decide) (fun _ _ => rfl) (fun _ => rfl)
  regOf (pdats m) 6 launch6 (E13 m) (E14 m) (fun c => body_obligation6 (T13 m) c)
    (fun _ _ => rfl) (fun _ _ => rfl) (fun _ _ => rfl) (fun _ => .rfl) (fun _ => .rfl) (fun _ _ => rfl) h.1 h.2
def reg7 : Pipeline.RegionSeg (pcfgs (F := F)) adm (pdats m) () defs₀ Variants.none L0 lv0 7 :=
  have h := exit_of_update (pdats m) 7 launch7 (E15 m) (E16 m) 6 (by decide) (fun _ _ => rfl) (fun _ => rfl)
  regOf (pdats m) 7 launch7 (E15 m) (E16 m) (fun c => body_obligation7 (T15 m) c)
    (fun _ _ => rfl) (fun _ _ => rfl) (fun _ _ => rfl) (fun _ => .rfl) (fun _ => .rfl) (fun _ _ => rfl) h.1 h.2
def reg8 : Pipeline.RegionSeg (pcfgs (F := F)) adm (pdats m) () defs₀ Variants.none L0 lv0 8 :=
  have h := exit_of_update (pdats m) 8 launch8 (E17 m) (E18 m) 2 (by decide) (fun _ _ => rfl) (fun _ => rfl)
  regOf (pdats m) 8 launch8 (E17 m) (E18 m) (fun c => body_obligation8 (T17 m) c)
    (fun _ _ => rfl) (fun _ _ => rfl) (fun _ _ => rfl) (fun c => hin8 (T17 m) c) (fun c => hout8 (T17 m) c) (fun _ _ => rfl) h.1 h.2

abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (u0 : UR sig nD τ)) ∗ bigSep Finset.univ (fun _ : Dev nD => (BI.emp : sProp 𝕄))) := by
  iintro Hu; imodintro
  isplitl [Hu]
  · iapply (show (ownU (u0 : UR sig nD τ) : sProp 𝕄)
        ⊢ BI.own (emb₁ (u0 : UR sig nD τ)) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L0 lv0)
    ⊢ (|={Set.univ}=> bigSep Finset.univ (fun c : Dev nD => Rd (F := F) c) : sProp 𝕄) := by
  refine Pipeline.initEach L0 lv0 fun c => ?_
  iintro ⟨⟨-, HO, -, Hp, -⟩, -⟩
  imodintro
  isplitl [Hp]; · iexists _; iexact Hp
  iexists ∅; iexact HO

theorem hE9 (c : Dev nD) : (Rd (F := F) c) ⊢ (iprop(∃ W, owes (c : Thread nD τ) (0 : CellTallies nD τ sig Unit) W) : sProp 𝕄) := by
  iintro ⟨-, HO⟩; iexact HO

set_option backward.isDefEq.respectTransparency.types false in

theorem run_value : θ_run defs (onTc (τ := τ) (main (F := F))) ⟨m, fun _ => 0, ρ⟩ (fun r => ∀ c : Dev nD,
      r.2.mem ((c.tc : Thread nD τ).loc main_v72) = E19 m c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ Variants.none L0 lv0 m ρ main
    (segs m (outs m) Variants.none L0 lv0 (fun _ c => Rd c) () (pdats m) (reg0 m) (reg1 m) (reg2 m) (reg3 m) (reg4 m) (reg5 m) (reg6 m) (reg7 m) (reg8 m))
    (fun c Q => by
      rewrite [main_chain c, Seg.run_eq_chain]
      exact .rfl)
    (fun c => by simp only [segs, Seg.pipes_host, Seg.pipes_region, Seg.pipes_nil]; decide) 0 (fun _ _ => rfl) (fun _ => (BI.emp : sProp 𝕄)) u0 hu0
    (T₀ := fun c => iprop(StableHlo.held (c : Thread nD τ) (Pipeline.ucRefs τ sig) (V0 m c) ∗ Rd c))
    (Tₙ := fun c => StableHlo.held (c : Thread nD τ) (Pipeline.ucRefs τ sig) (V19 m (outs m) c))
    (hch := fun c => ⟨.rfl, held_eq (V1_eq m c), held_eq (V2_eq m c).symm, held_eq (V3_eq m c), held_eq (V4_eq m c).symm, held_eq (V5_eq m c), held_eq (V6_eq m c).symm, held_eq (V7_eq m c), held_eq (V8_eq m c).symm, held_eq (V9_eq m c), held_eq (V10_eq m c).symm, held_eq (V11_eq m c), held_eq (V12_eq m c).symm, held_eq (V13_eq m c), held_eq (V14_eq m c).symm, held_eq (V15_eq m c), held_eq (V16_eq m c).symm, held_eq (V17_eq m c), held_eq (V18_eq m c).symm, sep_mono .rfl (hE9 c)⟩)
    (hinit := ?_) (QY := fun c s => s.mem ((c.tc : Thread nD τ).loc main_v72) = E19 m c main_v72
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rd (F := F) c)]
    isplitl [Hh]; · iexact Hh
    iexact HE
  ·
    unfold StableHlo.held
    iintro ⟨Hh, HSI⟩
    ihave Hr := (pointsTo_read_all (Pipeline.ucRefs τ sig) (fun b => ((c : Thread nD τ).1, b)) (V19 m (outs m) c) s') $$ [Hh HSI]
    · isplitl [Hh] <;> iassumption
    icases Hr with ⟨%h, HSI⟩
    imodintro
    isplitr
    · ipureintro
      have key (r : Ref sig .tc) (hr) := h (Proc.devRef .tc r) (Finset.mem_filter.mpr ⟨StableHlo.devRef_mem_tcRefs r, hr⟩)
      exact ⟨(key main_v72 (by decide)).trans (congrFun (V19_eq m c) _),
        (key main_arg0 (by decide)).trans (V19_main_arg0 m (outs m) c),
        (key main_arg1 (by decide)).trans (V19_main_arg1 m (outs m) c),
        (key main_arg2 (by decide)).trans (V19_main_arg2 m (outs m) c),
        (key main_arg3 (by decide)).trans (V19_main_arg3 m (outs m) c),
        (key main_arg4 (by decide)).trans (V19_main_arg4 m (outs m) c),
        (key main_arg5 (by decide)).trans (V19_main_arg5 m (outs m) c),
        (key main_arg6 (by decide)).trans (V19_main_arg6 m (outs m) c),
        (key main_arg7 (by decide)).trans (V19_main_arg7 m (outs m) c)⟩
    · iexact HSI

end Cert.KernelIdeal.Hand

end
-- ==== Proof.Spec.lean ====
import proofs.«402922_j42726334660740_1_alg».proof.Proof.Gen.KernelIdeal
import Idealize.ShloMosaic.PureOps.Ideal
import Idealize.ShloMosaic.Lib.ValueIdx

/-!
The network's result as one function of its eight arguments over the extended reals: per round the node transform `T`
(rows times a weight block), the edge aggregation `MP` (gather at the sources, add up at the destinations) and the gated
cell `G`; then the pooled sum `P` of positive parts per graph and its quotient by the larger of one and the node count.
-/

noncomputable section

namespace Cert.Spec

open Idealize.ShloMosaic Idealize.ShloMosaic.ValueIdx Cert.KernelIdeal Cert.KernelIdeal.Gen

abbrev one32 : EReal := Ideal.ofBits .f32 0x3F800000#32
abbrev zero32 : EReal := Ideal.ofBits .f32 0x00000000#32

def Wi0 (w : FVec Ideal S4x128x128 .f32) : FVec Ideal S128x128 .f32 :=
  shapeCast S128x128 (extractStridedSlice S1x128x128 ![0, 0, 0] w slices_S4x128x128_S1x128x128_0_0_0) shapeCasts_S1x128x128_S128x128
def Wi1 (w : FVec Ideal S4x128x128 .f32) : FVec Ideal S128x128 .f32 :=
  shapeCast S128x128 (extractStridedSlice S1x128x128 ![1, 0, 0] w slices_S4x128x128_S1x128x128_1_0_0) shapeCasts_S1x128x128_S128x128
def Wi2 (w : FVec Ideal S4x128x128 .f32) : FVec Ideal S128x128 .f32 :=
  shapeCast S128x128 (extractStridedSlice S1x128x128 ![2, 0, 0] w slices_S4x128x128_S1x128x128_2_0_0) shapeCasts_S1x128x128_S128x128
def Wi3 (w : FVec Ideal S4x128x128 .f32) : FVec Ideal S128x128 .f32 :=
  shapeCast S128x128 (extractStridedSlice S1x128x128 ![3, 0, 0] w slices_S4x128x128_S1x128x128_3_0_0) shapeCasts_S1x128x128_S128x128

def Tc (h : FVec Ideal S100000x128 .f32) (W : FVec Ideal S128x128 .f32) (r : Fin 100000) (j : Fin 128) : EReal :=
  ∑ k : Fin 128, h (ix2 r k) * W (ix2 k j)
def T (h : FVec Ideal S100000x128 .f32) (W : FVec Ideal S128x128 .f32) : FVec Ideal S100000x128 .f32 :=
  fun i => Tc h W (i 0) (i 1)

def g0 (j : Fin 128) : Fin 384 := ⟨j.val, by omega⟩
def g1 (j : Fin 128) : Fin 384 := ⟨128 + j.val, by omega⟩
def g2 (j : Fin 128) : Fin 384 := ⟨256 + j.val, by omega⟩

def aff (x : FVec Ideal S100000x128 .f32) (w : FVec Ideal S384x128 .f32) (b : Fin 384 → EReal) (r : Fin 100000) (q : Fin 384) : EReal :=
  (∑ k : Fin 128, x (ix2 r k) * w (ix2 q k)) + b q

def Gc (aggr h : FVec Ideal S100000x128 .f32) (wih whh : FVec Ideal S384x128 .f32) (bi bh : Fin 384 → EReal)
    (r : Fin 100000) (j : Fin 128) : EReal :=
  let rg := Ideal.logistic (aff aggr wih bi r (g0 j) + aff h whh bh r (g0 j))
  let z := Ideal.logistic (aff aggr wih bi r (g1 j) + aff h whh bh r (g1 j))
  let n := Ideal.tanh (aff aggr wih bi r (g2 j) + rg * aff h whh bh r (g2 j))
  (one32 - z) * n + z * h (ix2 r j)
def G (aggr h : FVec Ideal S100000x128 .f32) (wih whh : FVec Ideal S384x128 .f32) (bi bh : Fin 384 → EReal) :
    FVec Ideal S100000x128 .f32 :=
  fun i => Gc aggr h wih whh bi bh (i 0) (i 1)

def bcol (b : FVec Ideal S384 .f32) : Fin 384 → EReal := fun q => b (ix1 q)

def Pc (h : FVec Ideal S100000x128 .f32) (bf : Fin 100000 → BitVec 32) (g : Fin 64) (j : Fin 128) : EReal :=
  ∑ r : Fin 100000, if bf r = BitVec.ofNat 32 g.val then max (h (ix2 r j)) zero32 else 0
def P (h : FVec Ideal S100000x128 .f32) (bf : Fin 100000 → BitVec 32) : FVec Ideal S64x128 .f32 :=
  fun i => Pc h bf (i 0) (i 1)

def bnode (b : IVec S100000 32) : Fin 100000 → BitVec 32 := fun r => b (ix1 r)

def esrc (e : IVec S2x1600000 32) : IVec S1600000 32 :=
  shapeCast S1600000 (extractStridedSlice S1x1600000 ![0, 0] e slices_S2x1600000_S1x1600000_0_0) shapeCasts_S1x1600000_S1600000
def edst (e : IVec S2x1600000 32) : IVec S1600000 32 :=
  shapeCast S1600000 (extractStridedSlice S1x1600000 ![1, 0] e slices_S2x1600000_S1x1600000_1_0) shapeCasts_S1x1600000_S1600000

def MP (m : FVec Ideal S100000x128 .f32) (e : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edst e))
    (Host.gather gather_S100000x128_S1600000x1_S1600000x128_1_0_n_n_0_1_1128 m
      (broadcastInDim S1600000x1 ![0] bcast_S1600000_S1600000x1_0
        (select (cmpi .slt (esrc e) (broadcastInDim S1600000 ![] bcast_S_S1600000 (constantI S_ 32 0#32)))
          (addi (esrc e) (broadcastInDim S1600000 ![] bcast_S_S1600000 (constantI S_ 32 100000#32))) (esrc e))))

def Tail (p : FVec Ideal S64x128 .f32) (b : IVec S100000 32) : FVec Ideal S64x128 .f32 :=
  Host.divf (F := Ideal) p
    (broadcastInDim S64x128 ![0, 1] bcast_S64x1_S64x128_0_1
      (broadcastInDim S64x1 ![0] bcast_S64_S64x1_0
        (maximumf
          (Host.scatterAdd (F := Ideal) scatter_S64_S100000x1_S100000_n_0_0_1
            (broadcastInDim S64 ![] bcast_S_S64 (constant (F := Ideal) S_ .f32 0x00000000#32))
            (broadcastInDim S100000x1 ![0] bcast_S100000_S100000x1_0 b)
            (broadcastInDim S100000 ![] bcast_S_S100000 (constant (F := Ideal) S_ .f32 0x3F800000#32)))
          (broadcastInDim S64 ![] bcast_S_S64 (constant (F := Ideal) S_ .f32 0x3F800000#32)))))

def Step (h : FVec Ideal S100000x128 .f32) (W : FVec Ideal S128x128 .f32) (e : IVec S2x1600000 32)
    (wih whh : FVec Ideal S384x128 .f32) (bih bhh : FVec Ideal S384 .f32) : FVec Ideal S100000x128 .f32 :=
  G (MP (T h W) e) h wih whh (bcol bih) (bcol bhh)

def Out (x : FVec Ideal S100000x128 .f32) (e : IVec S2x1600000 32) (b : IVec S100000 32) (w : FVec Ideal S4x128x128 .f32)
    (wih whh : FVec Ideal S384x128 .f32) (bih bhh : FVec Ideal S384 .f32) : FVec Ideal S64x128 .f32 :=
  Tail (P (Step (Step (Step (Step x (Wi0 w) e wih whh bih bhh) (Wi1 w) e wih whh bih bhh) (Wi2 w) e wih whh bih bhh) (Wi3 w) e wih whh bih bhh) (bnode b)) b

end Cert.Spec

end
-- ==== Proof.KI.Host.lean ====
import proofs.«402922_j42726334660740_1_alg».proof.Proof.Gen.KernelIdeal.Launch
import proofs.«402922_j42726334660740_1_alg».proof.Proof.Spec
import Idealize.ShloMosaic.Lib.StableHlo.Run
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL.Sem

/-- The edge aggregation over given source and destination rows. -/
def MPof (m : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 m
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem MP_eq_MPof (m : FVec Ideal S100000x128 .f32) (e : IVec S2x1600000 32) :
    Cert.Spec.MP m e = MPof m (Cert.Spec.esrc e) (Cert.Spec.edst e) := rfl

variable (W : Valuation τ sig (Elt Ideal))

theorem host0_v1 : (StableHlo.after (hostOps0 (F := Ideal)) W main_v1 : IVec S1600000 32) = Cert.Spec.esrc (W main_arg1) := by
  after_results_simp; rfl

theorem host0_v3 : (StableHlo.after (hostOps0 (F := Ideal)) W main_v3 : IVec S1600000 32) = Cert.Spec.edst (W main_arg1) := by
  after_results_simp; rfl

theorem host0_v4 : (StableHlo.after (hostOps0 (F := Ideal)) W main_v4 : FVec Ideal S1x384 .f32)
    = shapeCast S1x384 (W main_arg6 : FVec Ideal S384 .f32) shapeCasts_S384_S1x384 := by
  after_results_simp; rfl

theorem host0_v5 : (StableHlo.after (hostOps0 (F := Ideal)) W main_v5 : FVec Ideal S1x384 .f32)
    = shapeCast S1x384 (W main_arg7 : FVec Ideal S384 .f32) shapeCasts_S384_S1x384 := by
  after_results_simp; rfl

theorem host0_v7 : (StableHlo.after (hostOps0 (F := Ideal)) W main_v7 : FVec Ideal S128x128 .f32) = Cert.Spec.Wi0 (W main_arg3) := by
  after_results_simp; rfl

theorem host1_v18 : (StableHlo.after (hostOps1 (F := Ideal)) W main_v18 : FVec Ideal S100000x128 .f32)
    = MPof (W main_v8) (W main_v1) (W main_v3) := by
  after_results_simp; rfl

theorem host2_v21 : (StableHlo.after (hostOps2 (F := Ideal)) W main_v21 : FVec Ideal S128x128 .f32) = Cert.Spec.Wi1 (W main_arg3) := by
  after_results_simp; rfl

theorem host3_v32 : (StableHlo.after (hostOps3 (F := Ideal)) W main_v32 : FVec Ideal S100000x128 .f32)
    = MPof (W main_v22) (W main_v1) (W main_v3) := by
  after_results_simp; rfl

theorem host4_v35 : (StableHlo.after (hostOps4 (F := Ideal)) W main_v35 : FVec Ideal S128x128 .f32) = Cert.Spec.Wi2 (W main_arg3) := by
  after_results_simp; rfl

theorem host5_v46 : (StableHlo.after (hostOps5 (F := Ideal)) W main_v46 : FVec Ideal S100000x128 .f32)
    = MPof (W main_v36) (W main_v1) (W main_v3) := by
  after_results_simp; rfl

theorem host6_v49 : (StableHlo.after (hostOps6 (F := Ideal)) W main_v49 : FVec Ideal S128x128 .f32) = Cert.Spec.Wi3 (W main_arg3) := by
  after_results_simp; rfl

theorem host7_v60 : (StableHlo.after (hostOps7 (F := Ideal)) W main_v60 : FVec Ideal S100000x128 .f32)
    = MPof (W main_v50) (W main_v1) (W main_v3) := by
  after_results_simp; rfl

theorem host8_v62 : (StableHlo.after (hostOps8 (F := Ideal)) W main_v62 : IVec S100000x1 32)
    = shapeCast S100000x1 (W main_arg2 : IVec S100000 32) shapeCasts_S100000_S100000x1 := by
  after_results_simp; rfl

theorem host9_v72 : (StableHlo.after (hostOps9 (F := Ideal)) W main_v72 : FVec Ideal S64x128 .f32)
    = Cert.Spec.Tail (W main_v63) (W main_arg2) := by
  after_results_simp; rfl

theorem shapeCast_S384_S1x384_apply {α : Type} (b : S384.Idx → α) (q : Fin 384) :
    shapeCast S1x384 b shapeCasts_S384_S1x384 (ix2 (0 : Fin 1) q) = b (ix1 q) :=
  shapeCast_a_1a_apply b shapeCasts_S384_S1x384 0 q

theorem shapeCast_S100000_S100000x1_apply {α : Type} (b : S100000.Idx → α) (r : Fin 100000) :
    shapeCast S100000x1 b shapeCasts_S100000_S100000x1 (ix2 r (0 : Fin 1)) = b (ix1 r) :=
  shapeCast_apply b shapeCasts_S100000_S100000x1 _ _ (by
    rw [Shape.rowMajor_val_two, Shape.rowMajor_val_one]
    show r.val = r.val * 1 + 0
    rw [Nat.mul_one, Nat.add_zero])

end Cert.KernelIdeal.Hand

end
-- ==== Proof.KI.PayT.lean ====
import proofs.«402922_j42726334660740_1_alg».proof.Proof.Gen.KernelIdeal.Skeleton
import proofs.«402922_j42726334660740_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- A product contracted over one axis of extent `n`, into a zero accumulator: entry `j` is the sum over the contraction coordinate `k` of the factors at `L k` and `R k`. -/
theorem mm_apply {sl sr so : Shape} {φ₁ φ₂ : FTy} (D : DotDims sl sr so) (n : ℕ) (hr : D.contr.rank = 1)
    (hs : D.contr.size ⟨0, by omega⟩ = n) (x : FVec Ideal sl φ₁) (w : FVec Ideal sr φ₂) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    matmul D none x w (constant so .f32 0x00000000#32) j = ∑ k, x (L k) * w (R k) := by
  simp only [matmul]
  rw [Ideal.matmul_constant_zero_apply, ← Equiv.sum_comp (contrEquiv1 D n hr hs).symm]
  exact Finset.sum_congr rfl fun k _ => by rw [hL k, hR k]

variable (x0 : Vec Ideal S2000x128 .f32) (x1 : Vec Ideal S128x128 .f32) (p : Fin 2000) (q : Fin 128)

/-- The block product at row `p`, column `q`: row `p` of the block against column `q` of the weight. -/
theorem pay0_apply : k0_pay1 (F := Ideal) x0 x1 (ix2 p q) = ∑ k : Fin 128, x0 (ix2 p k) * x1 (ix2 k q) := by
  unfold k0_pay1
  simp only [shapeCast_self]
  exact mm_apply _ 128 rfl rfl _ _ _ _ _ (fun k => Shape.idx_ext₂ rfl rfl) (fun k => Shape.idx_ext₂ rfl rfl)

/-- The later transforms' payload is the first one's: they differ by a cast of a block to its own shape. -/
theorem pay2_apply : k2_pay1 (F := Ideal) x0 x1 (ix2 p q) = ∑ k : Fin 128, x0 (ix2 p k) * x1 (ix2 k q) := by
  rw [← pay0_apply]
  unfold k2_pay1 k0_pay1
  simp only [shapeCast_self]
theorem pay4_apply : k4_pay1 (F := Ideal) x0 x1 (ix2 p q) = ∑ k : Fin 128, x0 (ix2 p k) * x1 (ix2 k q) := pay2_apply x0 x1 p q
theorem pay6_apply : k6_pay1 (F := Ideal) x0 x1 (ix2 p q) = ∑ k : Fin 128, x0 (ix2 p k) * x1 (ix2 k q) := pay2_apply x0 x1 p q

end Cert.KernelIdeal.Hand

end
-- ==== Proof.KI.ValT.lean ====
import proofs.«402922_j42726334660740_1_alg».proof.Proof.KI.Reg0
import proofs.«402922_j42726334660740_1_alg».proof.Proof.KI.PayT

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff0 : (![0, 0] : Fin 2 → Nat) = fun _ => 0 := by decide

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the output block at point `t` is entry `(2000 t + p, q)` of the array. -/
theorem emb0_2 (t : Fin cfg0.N) (p : Fin 2000) (q : Fin 128) (r : Fin 100000) (hr : r.val = t.val * 2000 + p.val) :
    (((cfg0.win 2).blk t).view.emb (ix2 p q) : S100000x128.Idx) = ix2 r q := by
  obtain ⟨-, -, -, -, e0, e1⟩ := blockIdx0 t
  refine Shape.idx_ext₂ ?_ ?_
  · show win0_2.index t (0 : Fin 2) * 2000 + 1 * p.val = r.val; omega
  · show win0_2.index t (1 : Fin 2) * 128 + 1 * q.val = q.val; omega

/-- Block `t` of the result is block `t` of the transform: row `p` of the feature block and of the output block is the array's row `2000 t + p`, and the weight block is the whole weight. -/
theorem flushed0_T (c : Dev nD) (t : Fin cfg0.N) :
    (dat0 (F := Ideal) V c).flushed 2 t = ((cfg0.win 2).blk t).view.read (Elt Ideal)
      (Cert.Spec.T (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zeroOff0]
  simp only [View.ld_unit_zero (S := S2000x128) zeroOff0, View.ld_unit_zero (S := S128x128) zeroOff0]
  obtain ⟨a0, a1, b0, b1, -⟩ := blockIdx0 t
  refine funext fun (j : S2000x128.Idx) => ?_
  obtain ⟨p, q, rfl⟩ : ∃ (p : Fin 2000) (q : Fin 128), j = ix2 p q := ⟨j 0, j 1, eq_ix2 j⟩
  have hr : t.val * 2000 + p.val < 100000 := by have := t.isLt; have h : cfg0.N = 50 := N_0; have := p.isLt; omega
  show k0_pay1 (F := Ideal) (iblk0 V c 0 t) (iblk0 V c 1 t) (ix2 p q)
    = Cert.Spec.T (V c (Pipeline.arrRef spec0 0)) (V c (Pipeline.arrRef spec0 1)) (((cfg0.win 2).blk t).view.emb (ix2 p q))
  rw [pay0_apply, emb0_2 t p q ⟨_, hr⟩ rfl]
  unfold Cert.Spec.T Cert.Spec.Tc
  refine Finset.sum_congr rfl fun k _ => congrArg₂ (· * ·) ?_ ?_
  · show V c (Pipeline.arrRef spec0 0) (((cfg0.win 0).blk t).view.emb (ix2 p k)) = V c (Pipeline.arrRef spec0 0) (ix2 ⟨_, hr⟩ k)
    refine congrArg _ (Shape.idx_ext₂ ?_ ?_)
    · show win0_0.index t (0 : Fin 2) * 2000 + 1 * p.val = t.val * 2000 + p.val; omega
    · show win0_0.index t (1 : Fin 2) * 128 + 1 * k.val = k.val; omega
  · show V c (Pipeline.arrRef spec0 1) (((cfg0.win 1).blk t).view.emb (ix2 k q)) = V c (Pipeline.arrRef spec0 1) (ix2 k q)
    refine congrArg _ (Shape.idx_ext₂ ?_ ?_)
    · show win0_1.index t (0 : Fin 2) * 128 + 1 * k.val = k.val; omega
    · show win0_1.index t (1 : Fin 2) * 128 + 1 * q.val = q.val; omega

/-- Row `r` of the output array is row `r % 2000` of block `r / 2000`. -/
theorem rowCover0 (i : S100000x128.Idx) :
    ∃ t : Fin cfg0.N, (cfg0.win 2).flush t = true ∧ i ∈ ((cfg0.win 2).blk t).view.set := by
  have hi := idx2_lt0 i
  have hN : cfg0.N = 50 := N_0
  obtain ⟨t, ht⟩ : ∃ t : Fin cfg0.N, t.val = (i 0).val / 2000 := ⟨⟨_, by omega⟩, rfl⟩
  refine ⟨t, flush0_2 t, ?_⟩
  rw [(eq_ix2 i).trans (emb0_2 t ⟨(i 0).val % 2000, Nat.mod_lt _ (by norm_num)⟩ (i 1) (i 0) (by show _ = t.val * 2000 + (i 0).val % 2000; omega)).symm]
  exact View.emb_mem_set _ _

/-- The output array after the region: the transform of the two arrays the region found. -/
theorem arrAt0_T (c : Dev nD) :
    (dat0 (F := Ideal) V c).arrAt 2 cfg0.N = Cert.Spec.T (V c (Pipeline.arrRef spec0 0)) (V c (Pipeline.arrRef spec0 1)) :=
  (dat0 (F := Ideal) V c).arrAt_eq_of_cover 2 _ (fun t _ => flushed0_T V c t) rowCover0

end Cert.KernelIdeal.Hand

end
-- ==== Proof.KI.ValT2.lean ====
import proofs.«402922_j42726334660740_1_alg».proof.Proof.KI.Reg2
import proofs.«402922_j42726334660740_1_alg».proof.Proof.KI.PayT

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff2 : (![0, 0] : Fin 2 → Nat) = fun _ => 0 := by decide

theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, q)` of the output block at point `t` is entry `(2000 t + p, q)` of the array. -/
theorem emb2_2 (t : Fin cfg2.N) (p : Fin 2000) (q : Fin 128) (r : Fin 100000) (hr : r.val = t.val * 2000 + p.val) :
    (((cfg2.win 2).blk t).view.emb (ix2 p q) : S100000x128.Idx) = ix2 r q := by
  obtain ⟨-, -, -, -, e0, e1⟩ := blockIdx2 t
  refine Shape.idx_ext₂ ?_ ?_
  · show win2_2.index t (0 : Fin 2) * 2000 + 1 * p.val = r.val; omega
  · show win2_2.index t (1 : Fin 2) * 128 + 1 * q.val = q.val; omega

/-- Block `t` of the result is block `t` of the transform: row `p` of the feature block and of the output block is the array's row `2000 t + p`, and the weight block is the whole weight. -/
theorem flushed2_T (c : Dev nD) (t : Fin cfg2.N) :
    (dat2 (F := Ideal) V c).flushed 2 t = ((cfg2.win 2).blk t).view.read (Elt Ideal)
      (Cert.Spec.T (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zeroOff2]
  simp only [View.ld_unit_zero (S := S2000x128) zeroOff2, View.ld_unit_zero (S := S128x128) zeroOff2]
  obtain ⟨a0, a1, b0, b1, -⟩ := blockIdx2 t
  refine funext fun (j : S2000x128.Idx) => ?_
  obtain ⟨p, q, rfl⟩ : ∃ (p : Fin 2000) (q : Fin 128), j = ix2 p q := ⟨j 0, j 1, eq_ix2 j⟩
  have hr : t.val * 2000 + p.val < 100000 := by have := t.isLt; have h : cfg2.N = 50 := N_2; have := p.isLt; omega
  show k2_pay1 (F := Ideal) (iblk2 V c 0 t) (iblk2 V c 1 t) (ix2 p q)
    = Cert.Spec.T (V c (Pipeline.arrRef spec2 0)) (V c (Pipeline.arrRef spec2 1)) (((cfg2.win 2).blk t).view.emb (ix2 p q))
  rw [pay2_apply, emb2_2 t p q ⟨_, hr⟩ rfl]
  unfold Cert.Spec.T Cert.Spec.Tc
  refine Finset.sum_congr rfl fun k _ => congrArg₂ (· * ·) ?_ ?_
  · show V c (Pipeline.arrRef spec2 0) (((cfg2.win 0).blk t).view.emb (ix2 p k)) = V c (Pipeline.arrRef spec2 0) (ix2 ⟨_, hr⟩ k)
    refine congrArg _ (Shape.idx_ext₂ ?_ ?_)
    · show win2_0.index t (0 : Fin 2) * 2000 + 1 * p.val = t.val * 2000 + p.val; omega
    · show win2_0.index t (1 : Fin 2) * 128 + 1 * k.val = k.val; omega
  · show V c (Pipeline.arrRef spec2 1) (((cfg2.win 1).blk t).view.emb (ix2 k q)) = V c (Pipeline.arrRef spec2 1) (ix2 k q)
    refine congrArg _ (Shape.idx_ext₂ ?_ ?_)
    · show win2_1.index t (0 : Fin 2) * 128 + 1 * k.val = k.val; omega
    · show win2_1.index t (1 : Fin 2) * 128 + 1 * q.val = q.val; omega

/-- Row `r` of the output array is row `r % 2000` of block `r / 2000`. -/
theorem rowCover2 (i : S100000x128.Idx) :
    ∃ t : Fin cfg2.N, (cfg2.win 2).flush t = true ∧ i ∈ ((cfg2.win 2).blk t).view.set := by
  have hi := idx2_lt0 i
  have hN : cfg2.N = 50 := N_2
  obtain ⟨t, ht⟩ : ∃ t : Fin cfg2.N, t.val = (i 0).val / 2000 := ⟨⟨_, by omega⟩, rfl⟩
  refine ⟨t, flush2_2 t, ?_⟩
  rw [(eq_ix2 i).trans (emb2_2 t ⟨(i 0).val % 2000, Nat.mod_lt _ (by norm_num)⟩ (i 1) (i 0) (by show _ = t.val * 2000 + (i 0).val % 2000; omega)).symm]
  exact View.emb_mem_set _ _

/-- The output array after the region: the transform of the two arrays the region found. -/
theorem arrAt2_T (c : Dev nD) :
    (dat2 (F := Ideal) V c).arrAt 2 cfg2.N = Cert.Spec.T (V c (Pipeline.arrRef spec2 0)) (V c (Pipeline.arrRef spec2 1)) :=
  (dat2 (F := Ideal) V c).arrAt_eq_of_cover 2 _ (fun t _ => flushed2_T V c t) rowCover2

end Cert.KernelIdeal.Hand

end
-- ==== Proof.KI.ValT4.lean ====
import proofs.«402922_j42726334660740_1_alg».proof.Proof.KI.Reg4
import proofs.«402922_j42726334660740_1_alg».proof.Proof.KI.PayT

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff4 : (![0, 0] : Fin 2 → Nat) = fun _ => 0 := by decide

theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `(p, q)` of the output block at point `t` is entry `(2000 t + p, q)` of the array. -/
theorem emb4_2 (t : Fin cfg4.N) (p : Fin 2000) (q : Fin 128) (r : Fin 100000) (hr : r.val = t.val * 2000 + p.val) :
    (((cfg4.win 2).blk t).view.emb (ix2 p q) : S100000x128.Idx) = ix2 r q := by
  obtain ⟨-, -, -, -, e0, e1⟩ := blockIdx4 t
  refine Shape.idx_ext₂ ?_ ?_
  · show win4_2.index t (0 : Fin 2) * 2000 + 1 * p.val = r.val; omega
  · show win4_2.index t (1 : Fin 2) * 128 + 1 * q.val = q.val; omega

/-- Block `t` of the result is block `t` of the transform: row `p` of the feature block and of the output block is the array's row `2000 t + p`, and the weight block is the whole weight. -/
theorem flushed4_T (c : Dev nD) (t : Fin cfg4.N) :
    (dat4 (F := Ideal) V c).flushed 2 t = ((cfg4.win 2).blk t).view.read (Elt Ideal)
      (Cert.Spec.T (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zeroOff4]
  simp only [View.ld_unit_zero (S := S2000x128) zeroOff4, View.ld_unit_zero (S := S128x128) zeroOff4]
  obtain ⟨a0, a1, b0, b1, -⟩ := blockIdx4 t
  refine funext fun (j : S2000x128.Idx) => ?_
  obtain ⟨p, q, rfl⟩ : ∃ (p : Fin 2000) (q : Fin 128), j = ix2 p q := ⟨j 0, j 1, eq_ix2 j⟩
  have hr : t.val * 2000 + p.val < 100000 := by have := t.isLt; have h : cfg4.N = 50 := N_4; have := p.isLt; omega
  show k4_pay1 (F := Ideal) (iblk4 V c 0 t) (iblk4 V c 1 t) (ix2 p q)
    = Cert.Spec.T (V c (Pipeline.arrRef spec4 0)) (V c (Pipeline.arrRef spec4 1)) (((cfg4.win 2).blk t).view.emb (ix2 p q))
  rw [pay4_apply, emb4_2 t p q ⟨_, hr⟩ rfl]
  unfold Cert.Spec.T Cert.Spec.Tc
  refine Finset.sum_congr rfl fun k _ => congrArg₂ (· * ·) ?_ ?_
  · show V c (Pipeline.arrRef spec4 0) (((cfg4.win 0).blk t).view.emb (ix2 p k)) = V c (Pipeline.arrRef spec4 0) (ix2 ⟨_, hr⟩ k)
    refine congrArg _ (Shape.idx_ext₂ ?_ ?_)
    · show win4_0.index t (0 : Fin 2) * 2000 + 1 * p.val = t.val * 2000 + p.val; omega
    · show win4_0.index t (1 : Fin 2) * 128 + 1 * k.val = k.val; omega
  · show V c (Pipeline.arrRef spec4 1) (((cfg4.win 1).blk t).view.emb (ix2 k q)) = V c (Pipeline.arrRef spec4 1) (ix2 k q)
    refine congrArg _ (Shape.idx_ext₂ ?_ ?_)
    · show win4_1.index t (0 : Fin 2) * 128 + 1 * k.val = k.val; omega
    · show win4_1.index t (1 : Fin 2) * 128 + 1 * q.val = q.val; omega

/-- Row `r` of the output array is row `r % 2000` of block `r / 2000`. -/
theorem rowCover4 (i : S100000x128.Idx) :
    ∃ t : Fin cfg4.N, (cfg4.win 2).flush t = true ∧ i ∈ ((cfg4.win 2).blk t).view.set := by
  have hi := idx2_lt0 i
  have hN : cfg4.N = 50 := N_4
  obtain ⟨t, ht⟩ : ∃ t : Fin cfg4.N, t.val = (i 0).val / 2000 := ⟨⟨_, by omega⟩, rfl⟩
  refine ⟨t, flush4_2 t, ?_⟩
  rw [(eq_ix2 i).trans (emb4_2 t ⟨(i 0).val % 2000, Nat.mod_lt _ (by norm_num)⟩ (i 1) (i 0) (by show _ = t.val * 2000 + (i 0).val % 2000; omega)).symm]
  exact View.emb_mem_set _ _

/-- The output array after the region: the transform of the two arrays the region found. -/
theorem arrAt4_T (c : Dev nD) :
    (dat4 (F := Ideal) V c).arrAt 2 cfg4.N = Cert.Spec.T (V c (Pipeline.arrRef spec4 0)) (V c (Pipeline.arrRef spec4 1)) :=
  (dat4 (F := Ideal) V c).arrAt_eq_of_cover 2 _ (fun t _ => flushed4_T V c t) rowCover4

end Cert.KernelIdeal.Hand

end
-- ==== Proof.KI.ValT6.lean ====
import proofs.«402922_j42726334660740_1_alg».proof.Proof.KI.Reg6
import proofs.«402922_j42726334660740_1_alg».proof.Proof.KI.PayT

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff6 : (![0, 0] : Fin 2 → Nat) = fun _ => 0 := by decide

theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry `(p, q)` of the output block at point `t` is entry `(2000 t + p, q)` of the array. -/
theorem emb6_2 (t : Fin cfg6.N) (p : Fin 2000) (q : Fin 128) (r : Fin 100000) (hr : r.val = t.val * 2000 + p.val) :
    (((cfg6.win 2).blk t).view.emb (ix2 p q) : S100000x128.Idx) = ix2 r q := by
  obtain ⟨-, -, -, -, e0, e1⟩ := blockIdx6 t
  refine Shape.idx_ext₂ ?_ ?_
  · show win6_2.index t (0 : Fin 2) * 2000 + 1 * p.val = r.val; omega
  · show win6_2.index t (1 : Fin 2) * 128 + 1 * q.val = q.val; omega

/-- Block `t` of the result is block `t` of the transform: row `p` of the feature block and of the output block is the array's row `2000 t + p`, and the weight block is the whole weight. -/
theorem flushed6_T (c : Dev nD) (t : Fin cfg6.N) :
    (dat6 (F := Ideal) V c).flushed 2 t = ((cfg6.win 2).blk t).view.read (Elt Ideal)
      (Cert.Spec.T (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero zeroOff6]
  simp only [View.ld_unit_zero (S := S2000x128) zeroOff6, View.ld_unit_zero (S := S128x128) zeroOff6]
  obtain ⟨a0, a1, b0, b1, -⟩ := blockIdx6 t
  refine funext fun (j : S2000x128.Idx) => ?_
  obtain ⟨p, q, rfl⟩ : ∃ (p : Fin 2000) (q : Fin 128), j = ix2 p q := ⟨j 0, j 1, eq_ix2 j⟩
  have hr : t.val * 2000 + p.val < 100000 := by have := t.isLt; have h : cfg6.N = 50 := N_6; have := p.isLt; omega
  show k6_pay1 (F := Ideal) (iblk6 V c 0 t) (iblk6 V c 1 t) (ix2 p q)
    = Cert.Spec.T (V c (Pipeline.arrRef spec6 0)) (V c (Pipeline.arrRef spec6 1)) (((cfg6.win 2).blk t).view.emb (ix2 p q))
  rw [pay6_apply, emb6_2 t p q ⟨_, hr⟩ rfl]
  unfold Cert.Spec.T Cert.Spec.Tc
  refine Finset.sum_congr rfl fun k _ => congrArg₂ (· * ·) ?_ ?_
  · show V c (Pipeline.arrRef spec6 0) (((cfg6.win 0).blk t).view.emb (ix2 p k)) = V c (Pipeline.arrRef spec6 0) (ix2 ⟨_, hr⟩ k)
    refine congrArg _ (Shape.idx_ext₂ ?_ ?_)
    · show win6_0.index t (0 : Fin 2) * 2000 + 1 * p.val = t.val * 2000 + p.val; omega
    · show win6_0.index t (1 : Fin 2) * 128 + 1 * k.val = k.val; omega
  · show V c (Pipeline.arrRef spec6 1) (((cfg6.win 1).blk t).view.emb (ix2 k q)) = V c (Pipeline.arrRef spec6 1) (ix2 k q)
    refine congrArg _ (Shape.idx_ext₂ ?_ ?_)
    · show win6_1.index t (0 : Fin 2) * 128 + 1 * k.val = k.val; omega
    · show win6_1.index t (1 : Fin 2) * 128 + 1 * q.val = q.val; omega

/-- Row `r` of the output array is row `r % 2000` of block `r / 2000`. -/
theorem rowCover6 (i : S100000x128.Idx) :
    ∃ t : Fin cfg6.N, (cfg6.win 2).flush t = true ∧ i ∈ ((cfg6.win 2).blk t).view.set := by
  have hi := idx2_lt0 i
  have hN : cfg6.N = 50 := N_6
  obtain ⟨t, ht⟩ : ∃ t : Fin cfg6.N, t.val = (i 0).val / 2000 := ⟨⟨_, by omega⟩, rfl⟩
  refine ⟨t, flush6_2 t, ?_⟩
  rw [(eq_ix2 i).trans (emb6_2 t ⟨(i 0).val % 2000, Nat.mod_lt _ (by norm_num)⟩ (i 1) (i 0) (by show _ = t.val * 2000 + (i 0).val % 2000; omega)).symm]
  exact View.emb_mem_set _ _

/-- The output array after the region: the transform of the two arrays the region found. -/
theorem arrAt6_T (c : Dev nD) :
    (dat6 (F := Ideal) V c).arrAt 2 cfg6.N = Cert.Spec.T (V c (Pipeline.arrRef spec6 0)) (V c (Pipeline.arrRef spec6 1)) :=
  (dat6 (F := Ideal) V c).arrAt_eq_of_cover 2 _ (fun t _ => flushed6_T V c t) rowCover6

end Cert.KernelIdeal.Hand

end
-- ==== Proof.KI.PayG.lean ====
import proofs.«402922_j42726334660740_1_alg».proof.Proof.KI.PayT
import Idealize.ShloMosaic.Lib.ValueLayout

noncomputable section

namespace Cert.KernelIdeal.Hand

open Cert.KernelIdeal Cert.KernelIdeal.Gen
open Idealize.ShloMosaic Idealize.ShloMosaic.ValueIdx

/-- A block against a weight used transposed, into a zero accumulator: entry `(p, q)` is row `p` of the block against row `q` of the weight. -/
theorem gate_matmul_apply (x : FVec Ideal S2000x128 .bf16) (w : FVec Ideal S384x128 .bf16) (p : Fin 2000) (q : Fin 384) :
    matmul dot_S2000x128_S384x128_S2000x384_1_1_0_0_n_n none x w (constant (F := Ideal) S2000x384 .f32 0x00000000#32) (ix2 p q)
      = ∑ k : Fin 128, x (ix2 p k) * w (ix2 q k) :=
  mm_apply _ 128 rfl rfl x w _ _ _ (fun k => Shape.idx_ext₂ rfl rfl) (fun k => Shape.idx_ext₂ rfl rfl)

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

variable (xh xa : FVec Ideal S2000x128 .f32) (H A : FVec Ideal S100000x128 .f32) (wih whh : FVec Ideal S384x128 .f32)
  (bi bh : FVec Ideal S1x384 .f32) (p : Fin 2000) (r : Fin 100000)
  (hh : ∀ k : Fin 128, xh (ix2 p k) = H (ix2 r k)) (ha : ∀ k : Fin 128, xa (ix2 p k) = A (ix2 r k)) (j : Fin 128)
include hh ha

/-- An entry of the cell depends on its own row only: over blocks whose row `p` is row `r` of the arrays, the payload at `(p, j)` is the specification's cell at `(r, j)`; the gates are columns `j`, `128 + j`, `256 + j` of the two affine maps. -/
theorem gcell1 : k1_pay1 (F := Ideal) xh xa wih whh bi bh (ix2 p j) = Cert.Spec.Gc A H wih whh (fun q => bi (ix2 0 q)) (fun q => bh (ix2 0 q)) r j := by
  unfold k1_pay1 Cert.Spec.Gc Cert.Spec.aff
  simp only [addf_apply, mulf_apply, subf_apply, logistic_apply, tanh_apply, broadcast_apply, shapeCast_self,
    slice2_axis1_eq, broadcastTo_1b_ab_apply, gate_matmul_apply, truncf_apply, Nat.zero_add, ← hh, ← ha]
  rfl

/-- The later cells' payload is the first one's: they differ by a cast of a block to its own shape. -/
theorem gcell3 : k3_pay1 (F := Ideal) xh xa wih whh bi bh (ix2 p j) = Cert.Spec.Gc A H wih whh (fun q => bi (ix2 0 q)) (fun q => bh (ix2 0 q)) r j := by
  rw [← gcell1 xh xa H A wih whh bi bh p r hh ha j]
  unfold k3_pay1 k1_pay1
  simp only [shapeCast_self]
theorem gcell5 : k5_pay1 (F := Ideal) xh xa wih whh bi bh (ix2 p j) = Cert.Spec.Gc A H wih whh (fun q => bi (ix2 0 q)) (fun q => bh (ix2 0 q)) r j := gcell3 xh xa H A wih whh bi bh p r hh ha j
theorem gcell7 : k7_pay1 (F := Ideal) xh xa wih whh bi bh (ix2 p j) = Cert.Spec.Gc A H wih whh (fun q => bi (ix2 0 q)) (fun q => bh (ix2 0 q)) r j := gcell3 xh xa H A wih whh bi bh p r hh ha j

end Cert.KernelIdeal.Hand

end
-- ==== Proof.KI.ValG.lean ====
import proofs.«402922_j42726334660740_1_alg».proof.Proof.KI.Reg1
import proofs.«402922_j42726334660740_1_alg».proof.Proof.KI.PayG

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := by decide

theorem idx1_G : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)
theorem idxZ1 : ∀ (t : Fin cfg1.N) (a : Fin 2), win1_2.index t a = 0 ∧ win1_3.index t a = 0 ∧ win1_4.index t a = 0 ∧ win1_5.index t a = 0 :=
  (by decide +kernel : ∀ (t : Fin grid1.N) (a : Fin 2), _)

/-- The specification's cell over the six arrays as the region finds them; the two bias rows are read by column. -/
abbrev out1_G (c : Dev nD) : S100000x128.Idx → EReal :=
  Cert.Spec.G (V c (Pipeline.arrRef spec1 0)) (V c (Pipeline.arrRef spec1 1)) (V c (Pipeline.arrRef spec1 2))
    (V c (Pipeline.arrRef spec1 3)) (fun q => V c (Pipeline.arrRef spec1 4) (ValueIdx.ix2 0 q))
    (fun q => V c (Pipeline.arrRef spec1 5) (ValueIdx.ix2 0 q))

/-- Row `p` of the aggregate block at point `t` is row `2000 t + p` of the aggregate array. -/
theorem iblk1_0_row (c : Dev nD) (t : Fin cfg1.N) (p : Fin 2000) (k : Fin 128) (r : Fin 100000) (hr : r.val = t.val * 2000 + p.val) :
    (iblk1 V c 0 t : S2000x128.Idx → EReal) (ix2 p k) = V c (Pipeline.arrRef spec1 0) (ix2 r k) := by
  obtain ⟨e0, e1, -⟩ := idx1_G t
  show V c (Pipeline.arrRef spec1 0) (((cfg1.win 0).blk t).view.emb (ix2 p k)) = _
  refine congrArg _ (Shape.idx_ext₂ ?_ ?_)
  · show win1_0.index t (0 : Fin 2) * 2000 + 1 * p.val = r.val; omega
  · show win1_0.index t (1 : Fin 2) * 128 + 1 * k.val = k.val; omega

/-- Row `p` of the old features' block at point `t` is row `2000 t + p` of the old features. -/
theorem iblk1_1_row (c : Dev nD) (t : Fin cfg1.N) (p : Fin 2000) (k : Fin 128) (r : Fin 100000) (hr : r.val = t.val * 2000 + p.val) :
    (iblk1 V c 1 t : S2000x128.Idx → EReal) (ix2 p k) = V c (Pipeline.arrRef spec1 1) (ix2 r k) := by
  obtain ⟨-, -, e0, e1, -⟩ := idx1_G t
  show V c (Pipeline.arrRef spec1 1) (((cfg1.win 1).blk t).view.emb (ix2 p k)) = _
  refine congrArg _ (Shape.idx_ext₂ ?_ ?_)
  · show win1_1.index t (0 : Fin 2) * 2000 + 1 * p.val = r.val; omega
  · show win1_1.index t (1 : Fin 2) * 128 + 1 * k.val = k.val; omega

/-- A weight or bias block is the whole array. -/
theorem iblk1_2_eq (c : Dev nD) (t : Fin cfg1.N) : (iblk1 V c 2 t : S384x128.Idx → EReal) = V c (Pipeline.arrRef spec1 2) :=
  funext fun z => congrArg (V c (Pipeline.arrRef spec1 2)) (funext fun a => Fin.ext (win1_2.rect_emb_val_of_index_zero t a (idxZ1 t a).1 z))
theorem iblk1_3_eq (c : Dev nD) (t : Fin cfg1.N) : (iblk1 V c 3 t : S384x128.Idx → EReal) = V c (Pipeline.arrRef spec1 3) :=
  funext fun z => congrArg (V c (Pipeline.arrRef spec1 3)) (funext fun a => Fin.ext (win1_3.rect_emb_val_of_index_zero t a (idxZ1 t a).2.1 z))
theorem iblk1_4_eq (c : Dev nD) (t : Fin cfg1.N) : (iblk1 V c 4 t : S1x384.Idx → EReal) = V c (Pipeline.arrRef spec1 4) :=
  funext fun z => congrArg (V c (Pipeline.arrRef spec1 4)) (funext fun a => Fin.ext (win1_4.rect_emb_val_of_index_zero t a (idxZ1 t a).2.2.1 z))
theorem iblk1_5_eq (c : Dev nD) (t : Fin cfg1.N) : (iblk1 V c 5 t : S1x384.Idx → EReal) = V c (Pipeline.arrRef spec1 5) :=
  funext fun z => congrArg (V c (Pipeline.arrRef spec1 5)) (funext fun a => Fin.ext (win1_5.rect_emb_val_of_index_zero t a (idxZ1 t a).2.2.2 z))

/-- Entry `(p, j)` of the output block at point `t` is entry `(2000 t + p, j)` of the array. -/
theorem idx1_emb (t : Fin cfg1.N) (p : Fin 2000) (j : Fin 128) (r : Fin 100000) (hr : r.val = t.val * 2000 + p.val) :
    (((cfg1.win 6).blk t).view.emb (ix2 p j) : S100000x128.Idx) = ix2 r j := by
  obtain ⟨-, -, -, -, e0, e1⟩ := idx1_G t
  refine Shape.idx_ext₂ ?_ ?_
  · show win1_6.index t (0 : Fin 2) * 2000 + 1 * p.val = r.val; omega
  · show win1_6.index t (1 : Fin 2) * 128 + 1 * j.val = j.val; omega

/-- Block `t` of the result is rows `2000 t …` of the specification's cell over the arrays. -/
theorem flushed1_G (c : Dev nD) (t : Fin cfg1.N) :
    (dat1 (F := Ideal) V c).flushed 6 t = ((cfg1.win 6).blk t).view.read (Elt Ideal) (out1_G V c) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S384x128) hz1, View.ld_unit_zero (S := S1x384) hz1]
  refine funext fun (y : S2000x128.Idx) => ?_
  obtain ⟨p, j, rfl⟩ : ∃ (p : Fin 2000) (j : Fin 128), y = ix2 p j := ⟨y 0, y 1, eq_ix2 y⟩
  have hr : t.val * 2000 + p.val < 100000 := by have := t.isLt; have h : cfg1.N = 50 := N_1; have := p.isLt; omega
  show k1_pay1 (F := Ideal) (iblk1 V c 1 t) (iblk1 V c 0 t) (iblk1 V c 2 t) (iblk1 V c 3 t) (iblk1 V c 4 t) (iblk1 V c 5 t) (ix2 p j)
      = out1_G V c (((cfg1.win 6).blk t).view.emb (ix2 p j))
  rw [iblk1_2_eq, iblk1_3_eq, iblk1_4_eq, iblk1_5_eq, idx1_emb t p j ⟨_, hr⟩ rfl]
  exact gcell1 _ _ _ _ _ _ _ _ p ⟨_, hr⟩ (fun k => iblk1_1_row V c t p k _ rfl) (fun k => iblk1_0_row V c t p k _ rfl) j

/-- Row `r` of the result is row `r % 2000` of block `r / 2000`. -/
theorem cover1_G (i : S100000x128.Idx) :
    ∃ t : Fin cfg1.N, (cfg1.win 6).flush t = true ∧ i ∈ ((cfg1.win 6).blk t).view.set := by
  have hi := idx2_lt0 i
  have hN : cfg1.N = 50 := N_1
  obtain ⟨t, ht⟩ : ∃ t : Fin cfg1.N, t.val = (i 0).val / 2000 := ⟨⟨_, by omega⟩, rfl⟩
  refine ⟨t, flush1_6 t, ?_⟩
  rw [(eq_ix2 i).trans (idx1_emb t ⟨(i 0).val % 2000, Nat.mod_lt _ (by norm_num)⟩ (i 1) (i 0) (by show _ = t.val * 2000 + (i 0).val % 2000; omega)).symm]
  exact View.emb_mem_set _ _

/-- The result array after the region is the specification's cell over the arrays as the region found them. -/
theorem arrAt1_G (c : Dev nD) :
    (dat1 (F := Ideal) V c).arrAt 6 cfg1.N
      = Cert.Spec.G (V c (Pipeline.arrRef spec1 0)) (V c (Pipeline.arrRef spec1 1)) (V c (Pipeline.arrRef spec1 2))
          (V c (Pipeline.arrRef spec1 3)) (fun q => V c (Pipeline.arrRef spec1 4) (ValueIdx.ix2 0 q))
          (fun q => V c (Pipeline.arrRef spec1 5) (ValueIdx.ix2 0 q)) :=
  (dat1 V c).arrAt_eq_of_cover 6 (out1_G V c) (fun t _ => flushed1_G V c t) cover1_G

end Cert.KernelIdeal.Hand

end
-- ==== Proof.KI.ValG3.lean ====
import proofs.«402922_j42726334660740_1_alg».proof.Proof.KI.Reg3
import proofs.«402922_j42726334660740_1_alg».proof.Proof.KI.PayG

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := by decide

theorem idx3_G : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0 :=
  (by decide +kernel : ∀ t : Fin grid3.N, _)
theorem idxZ3 : ∀ (t : Fin cfg3.N) (a : Fin 2), win3_2.index t a = 0 ∧ win3_3.index t a = 0 ∧ win3_4.index t a = 0 ∧ win3_5.index t a = 0 :=
  (by decide +kernel : ∀ (t : Fin grid3.N) (a : Fin 2), _)

/-- The specification's cell over the six arrays as the region finds them; the two bias rows are read by column. -/
abbrev out3_G (c : Dev nD) : S100000x128.Idx → EReal :=
  Cert.Spec.G (V c (Pipeline.arrRef spec3 0)) (V c (Pipeline.arrRef spec3 1)) (V c (Pipeline.arrRef spec3 2))
    (V c (Pipeline.arrRef spec3 3)) (fun q => V c (Pipeline.arrRef spec3 4) (ValueIdx.ix2 0 q))
    (fun q => V c (Pipeline.arrRef spec3 5) (ValueIdx.ix2 0 q))

/-- Row `p` of the aggregate block at point `t` is row `2000 t + p` of the aggregate array. -/
theorem iblk3_0_row (c : Dev nD) (t : Fin cfg3.N) (p : Fin 2000) (k : Fin 128) (r : Fin 100000) (hr : r.val = t.val * 2000 + p.val) :
    (iblk3 V c 0 t : S2000x128.Idx → EReal) (ix2 p k) = V c (Pipeline.arrRef spec3 0) (ix2 r k) := by
  obtain ⟨e0, e1, -⟩ := idx3_G t
  show V c (Pipeline.arrRef spec3 0) (((cfg3.win 0).blk t).view.emb (ix2 p k)) = _
  refine congrArg _ (Shape.idx_ext₂ ?_ ?_)
  · show win3_0.index t (0 : Fin 2) * 2000 + 1 * p.val = r.val; omega
  · show win3_0.index t (1 : Fin 2) * 128 + 1 * k.val = k.val; omega

/-- Row `p` of the old features' block at point `t` is row `2000 t + p` of the old features. -/
theorem iblk3_1_row (c : Dev nD) (t : Fin cfg3.N) (p : Fin 2000) (k : Fin 128) (r : Fin 100000) (hr : r.val = t.val * 2000 + p.val) :
    (iblk3 V c 1 t : S2000x128.Idx → EReal) (ix2 p k) = V c (Pipeline.arrRef spec3 1) (ix2 r k) := by
  obtain ⟨-, -, e0, e1, -⟩ := idx3_G t
  show V c (Pipeline.arrRef spec3 1) (((cfg3.win 1).blk t).view.emb (ix2 p k)) = _
  refine congrArg _ (Shape.idx_ext₂ ?_ ?_)
  · show win3_1.index t (0 : Fin 2) * 2000 + 1 * p.val = r.val; omega
  · show win3_1.index t (1 : Fin 2) * 128 + 1 * k.val = k.val; omega

/-- A weight or bias block is the whole array. -/
theorem iblk3_2_eq (c : Dev nD) (t : Fin cfg3.N) : (iblk3 V c 2 t : S384x128.Idx → EReal) = V c (Pipeline.arrRef spec3 2) :=
  funext fun z => congrArg (V c (Pipeline.arrRef spec3 2)) (funext fun a => Fin.ext (win3_2.rect_emb_val_of_index_zero t a (idxZ3 t a).1 z))
theorem iblk3_3_eq (c : Dev nD) (t : Fin cfg3.N) : (iblk3 V c 3 t : S384x128.Idx → EReal) = V c (Pipeline.arrRef spec3 3) :=
  funext fun z => congrArg (V c (Pipeline.arrRef spec3 3)) (funext fun a => Fin.ext (win3_3.rect_emb_val_of_index_zero t a (idxZ3 t a).2.1 z))
theorem iblk3_4_eq (c : Dev nD) (t : Fin cfg3.N) : (iblk3 V c 4 t : S1x384.Idx → EReal) = V c (Pipeline.arrRef spec3 4) :=
  funext fun z => congrArg (V c (Pipeline.arrRef spec3 4)) (funext fun a => Fin.ext (win3_4.rect_emb_val_of_index_zero t a (idxZ3 t a).2.2.1 z))
theorem iblk3_5_eq (c : Dev nD) (t : Fin cfg3.N) : (iblk3 V c 5 t : S1x384.Idx → EReal) = V c (Pipeline.arrRef spec3 5) :=
  funext fun z => congrArg (V c (Pipeline.arrRef spec3 5)) (funext fun a => Fin.ext (win3_5.rect_emb_val_of_index_zero t a (idxZ3 t a).2.2.2 z))

/-- Entry `(p, j)` of the output block at point `t` is entry `(2000 t + p, j)` of the array. -/
theorem idx3_emb (t : Fin cfg3.N) (p : Fin 2000) (j : Fin 128) (r : Fin 100000) (hr : r.val = t.val * 2000 + p.val) :
    (((cfg3.win 6).blk t).view.emb (ix2 p j) : S100000x128.Idx) = ix2 r j := by
  obtain ⟨-, -, -, -, e0, e1⟩ := idx3_G t
  refine Shape.idx_ext₂ ?_ ?_
  · show win3_6.index t (0 : Fin 2) * 2000 + 1 * p.val = r.val; omega
  · show win3_6.index t (1 : Fin 2) * 128 + 1 * j.val = j.val; omega

/-- Block `t` of the result is rows `2000 t …` of the specification's cell over the arrays. -/
theorem flushed3_G (c : Dev nD) (t : Fin cfg3.N) :
    (dat3 (F := Ideal) V c).flushed 6 t = ((cfg3.win 6).blk t).view.read (Elt Ideal) (out3_G V c) := by
  show (cfg3.win 6).cut (grid3.coords t) ((dat3 V c).after 6 t) = _
  rw [after3_6]
  unfold out3_6
  rw [View.canon_unit_zero hz3]
  simp only [View.ld_unit_zero (S := S2000x128) hz3, View.ld_unit_zero (S := S384x128) hz3, View.ld_unit_zero (S := S1x384) hz3]
  refine funext fun (y : S2000x128.Idx) => ?_
  obtain ⟨p, j, rfl⟩ : ∃ (p : Fin 2000) (j : Fin 128), y = ix2 p j := ⟨y 0, y 1, eq_ix2 y⟩
  have hr : t.val * 2000 + p.val < 100000 := by have := t.isLt; have h : cfg3.N = 50 := N_3; have := p.isLt; omega
  show k3_pay1 (F := Ideal) (iblk3 V c 1 t) (iblk3 V c 0 t) (iblk3 V c 2 t) (iblk3 V c 3 t) (iblk3 V c 4 t) (iblk3 V c 5 t) (ix2 p j)
      = out3_G V c (((cfg3.win 6).blk t).view.emb (ix2 p j))
  rw [iblk3_2_eq, iblk3_3_eq, iblk3_4_eq, iblk3_5_eq, idx3_emb t p j ⟨_, hr⟩ rfl]
  exact gcell3 _ _ _ _ _ _ _ _ p ⟨_, hr⟩ (fun k => iblk3_1_row V c t p k _ rfl) (fun k => iblk3_0_row V c t p k _ rfl) j

/-- Row `r` of the result is row `r % 2000` of block `r / 2000`. -/
theorem cover3_G (i : S100000x128.Idx) :
    ∃ t : Fin cfg3.N, (cfg3.win 6).flush t = true ∧ i ∈ ((cfg3.win 6).blk t).view.set := by
  have hi := idx2_lt0 i
  have hN : cfg3.N = 50 := N_3
  obtain ⟨t, ht⟩ : ∃ t : Fin cfg3.N, t.val = (i 0).val / 2000 := ⟨⟨_, by omega⟩, rfl⟩
  refine ⟨t, flush3_6 t, ?_⟩
  rw [(eq_ix2 i).trans (idx3_emb t ⟨(i 0).val % 2000, Nat.mod_lt _ (by norm_num)⟩ (i 1) (i 0) (by show _ = t.val * 2000 + (i 0).val % 2000; omega)).symm]
  exact View.emb_mem_set _ _

/-- The result array after the region is the specification's cell over the arrays as the region found them. -/
theorem arrAt3_G (c : Dev nD) :
    (dat3 (F := Ideal) V c).arrAt 6 cfg3.N
      = Cert.Spec.G (V c (Pipeline.arrRef spec3 0)) (V c (Pipeline.arrRef spec3 1)) (V c (Pipeline.arrRef spec3 2))
          (V c (Pipeline.arrRef spec3 3)) (fun q => V c (Pipeline.arrRef spec3 4) (ValueIdx.ix2 0 q))
          (fun q => V c (Pipeline.arrRef spec3 5) (ValueIdx.ix2 0 q)) :=
  (dat3 V c).arrAt_eq_of_cover 6 (out3_G V c) (fun t _ => flushed3_G V c t) cover3_G

end Cert.KernelIdeal.Hand

end
-- ==== Proof.KI.ValG5.lean ====
import proofs.«402922_j42726334660740_1_alg».proof.Proof.KI.Reg5
import proofs.«402922_j42726334660740_1_alg».proof.Proof.KI.PayG

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := by decide

theorem idx5_G : ∀ t : Fin cfg5.N,
    win5_0.index t (0 : Fin 2) = t.val ∧ win5_0.index t (1 : Fin 2) = 0
    ∧ win5_1.index t (0 : Fin 2) = t.val ∧ win5_1.index t (1 : Fin 2) = 0
    ∧ win5_6.index t (0 : Fin 2) = t.val ∧ win5_6.index t (1 : Fin 2) = 0 :=
  (by decide +kernel : ∀ t : Fin grid5.N, _)
theorem idxZ5 : ∀ (t : Fin cfg5.N) (a : Fin 2), win5_2.index t a = 0 ∧ win5_3.index t a = 0 ∧ win5_4.index t a = 0 ∧ win5_5.index t a = 0 :=
  (by decide +kernel : ∀ (t : Fin grid5.N) (a : Fin 2), _)

/-- The specification's cell over the six arrays as the region finds them; the two bias rows are read by column. -/
abbrev out5_G (c : Dev nD) : S100000x128.Idx → EReal :=
  Cert.Spec.G (V c (Pipeline.arrRef spec5 0)) (V c (Pipeline.arrRef spec5 1)) (V c (Pipeline.arrRef spec5 2))
    (V c (Pipeline.arrRef spec5 3)) (fun q => V c (Pipeline.arrRef spec5 4) (ValueIdx.ix2 0 q))
    (fun q => V c (Pipeline.arrRef spec5 5) (ValueIdx.ix2 0 q))

/-- Row `p` of the aggregate block at point `t` is row `2000 t + p` of the aggregate array. -/
theorem iblk5_0_row (c : Dev nD) (t : Fin cfg5.N) (p : Fin 2000) (k : Fin 128) (r : Fin 100000) (hr : r.val = t.val * 2000 + p.val) :
    (iblk5 V c 0 t : S2000x128.Idx → EReal) (ix2 p k) = V c (Pipeline.arrRef spec5 0) (ix2 r k) := by
  obtain ⟨e0, e1, -⟩ := idx5_G t
  show V c (Pipeline.arrRef spec5 0) (((cfg5.win 0).blk t).view.emb (ix2 p k)) = _
  refine congrArg _ (Shape.idx_ext₂ ?_ ?_)
  · show win5_0.index t (0 : Fin 2) * 2000 + 1 * p.val = r.val; omega
  · show win5_0.index t (1 : Fin 2) * 128 + 1 * k.val = k.val; omega

/-- Row `p` of the old features' block at point `t` is row `2000 t + p` of the old features. -/
theorem iblk5_1_row (c : Dev nD) (t : Fin cfg5.N) (p : Fin 2000) (k : Fin 128) (r : Fin 100000) (hr : r.val = t.val * 2000 + p.val) :
    (iblk5 V c 1 t : S2000x128.Idx → EReal) (ix2 p k) = V c (Pipeline.arrRef spec5 1) (ix2 r k) := by
  obtain ⟨-, -, e0, e1, -⟩ := idx5_G t
  show V c (Pipeline.arrRef spec5 1) (((cfg5.win 1).blk t).view.emb (ix2 p k)) = _
  refine congrArg _ (Shape.idx_ext₂ ?_ ?_)
  · show win5_1.index t (0 : Fin 2) * 2000 + 1 * p.val = r.val; omega
  · show win5_1.index t (1 : Fin 2) * 128 + 1 * k.val = k.val; omega

/-- A weight or bias block is the whole array. -/
theorem iblk5_2_eq (c : Dev nD) (t : Fin cfg5.N) : (iblk5 V c 2 t : S384x128.Idx → EReal) = V c (Pipeline.arrRef spec5 2) :=
  funext fun z => congrArg (V c (Pipeline.arrRef spec5 2)) (funext fun a => Fin.ext (win5_2.rect_emb_val_of_index_zero t a (idxZ5 t a).1 z))
theorem iblk5_3_eq (c : Dev nD) (t : Fin cfg5.N) : (iblk5 V c 3 t : S384x128.Idx → EReal) = V c (Pipeline.arrRef spec5 3) :=
  funext fun z => congrArg (V c (Pipeline.arrRef spec5 3)) (funext fun a => Fin.ext (win5_3.rect_emb_val_of_index_zero t a (idxZ5 t a).2.1 z))
theorem iblk5_4_eq (c : Dev nD) (t : Fin cfg5.N) : (iblk5 V c 4 t : S1x384.Idx → EReal) = V c (Pipeline.arrRef spec5 4) :=
  funext fun z => congrArg (V c (Pipeline.arrRef spec5 4)) (funext fun a => Fin.ext (win5_4.rect_emb_val_of_index_zero t a (idxZ5 t a).2.2.1 z))
theorem iblk5_5_eq (c : Dev nD) (t : Fin cfg5.N) : (iblk5 V c 5 t : S1x384.Idx → EReal) = V c (Pipeline.arrRef spec5 5) :=
  funext fun z => congrArg (V c (Pipeline.arrRef spec5 5)) (funext fun a => Fin.ext (win5_5.rect_emb_val_of_index_zero t a (idxZ5 t a).2.2.2 z))

/-- Entry `(p, j)` of the output block at point `t` is entry `(2000 t + p, j)` of the array. -/
theorem idx5_emb (t : Fin cfg5.N) (p : Fin 2000) (j : Fin 128) (r : Fin 100000) (hr : r.val = t.val * 2000 + p.val) :
    (((cfg5.win 6).blk t).view.emb (ix2 p j) : S100000x128.Idx) = ix2 r j := by
  obtain ⟨-, -, -, -, e0, e1⟩ := idx5_G t
  refine Shape.idx_ext₂ ?_ ?_
  · show win5_6.index t (0 : Fin 2) * 2000 + 1 * p.val = r.val; omega
  · show win5_6.index t (1 : Fin 2) * 128 + 1 * j.val = j.val; omega

/-- Block `t` of the result is rows `2000 t …` of the specification's cell over the arrays. -/
theorem flushed5_G (c : Dev nD) (t : Fin cfg5.N) :
    (dat5 (F := Ideal) V c).flushed 6 t = ((cfg5.win 6).blk t).view.read (Elt Ideal) (out5_G V c) := by
  show (cfg5.win 6).cut (grid5.coords t) ((dat5 V c).after 6 t) = _
  rw [after5_6]
  unfold out5_6
  rw [View.canon_unit_zero hz5]
  simp only [View.ld_unit_zero (S := S2000x128) hz5, View.ld_unit_zero (S := S384x128) hz5, View.ld_unit_zero (S := S1x384) hz5]
  refine funext fun (y : S2000x128.Idx) => ?_
  obtain ⟨p, j, rfl⟩ : ∃ (p : Fin 2000) (j : Fin 128), y = ix2 p j := ⟨y 0, y 1, eq_ix2 y⟩
  have hr : t.val * 2000 + p.val < 100000 := by have := t.isLt; have h : cfg5.N = 50 := N_5; have := p.isLt; omega
  show k5_pay1 (F := Ideal) (iblk5 V c 1 t) (iblk5 V c 0 t) (iblk5 V c 2 t) (iblk5 V c 3 t) (iblk5 V c 4 t) (iblk5 V c 5 t) (ix2 p j)
      = out5_G V c (((cfg5.win 6).blk t).view.emb (ix2 p j))
  rw [iblk5_2_eq, iblk5_3_eq, iblk5_4_eq, iblk5_5_eq, idx5_emb t p j ⟨_, hr⟩ rfl]
  exact gcell5 _ _ _ _ _ _ _ _ p ⟨_, hr⟩ (fun k => iblk5_1_row V c t p k _ rfl) (fun k => iblk5_0_row V c t p k _ rfl) j

/-- Row `r` of the result is row `r % 2000` of block `r / 2000`. -/
theorem cover5_G (i : S100000x128.Idx) :
    ∃ t : Fin cfg5.N, (cfg5.win 6).flush t = true ∧ i ∈ ((cfg5.win 6).blk t).view.set := by
  have hi := idx2_lt0 i
  have hN : cfg5.N = 50 := N_5
  obtain ⟨t, ht⟩ : ∃ t : Fin cfg5.N, t.val = (i 0).val / 2000 := ⟨⟨_, by omega⟩, rfl⟩
  refine ⟨t, flush5_6 t, ?_⟩
  rw [(eq_ix2 i).trans (idx5_emb t ⟨(i 0).val % 2000, Nat.mod_lt _ (by norm_num)⟩ (i 1) (i 0) (by show _ = t.val * 2000 + (i 0).val % 2000; omega)).symm]
  exact View.emb_mem_set _ _

/-- The result array after the region is the specification's cell over the arrays as the region found them. -/
theorem arrAt5_G (c : Dev nD) :
    (dat5 (F := Ideal) V c).arrAt 6 cfg5.N
      = Cert.Spec.G (V c (Pipeline.arrRef spec5 0)) (V c (Pipeline.arrRef spec5 1)) (V c (Pipeline.arrRef spec5 2))
          (V c (Pipeline.arrRef spec5 3)) (fun q => V c (Pipeline.arrRef spec5 4) (ValueIdx.ix2 0 q))
          (fun q => V c (Pipeline.arrRef spec5 5) (ValueIdx.ix2 0 q)) :=
  (dat5 V c).arrAt_eq_of_cover 6 (out5_G V c) (fun t _ => flushed5_G V c t) cover5_G

end Cert.KernelIdeal.Hand

end
-- ==== Proof.KI.ValG7.lean ====
import proofs.«402922_j42726334660740_1_alg».proof.Proof.KI.Reg7
import proofs.«402922_j42726334660740_1_alg».proof.Proof.KI.PayG

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := by decide

theorem idx7_G : ∀ t : Fin cfg7.N,
    win7_0.index t (0 : Fin 2) = t.val ∧ win7_0.index t (1 : Fin 2) = 0
    ∧ win7_1.index t (0 : Fin 2) = t.val ∧ win7_1.index t (1 : Fin 2) = 0
    ∧ win7_6.index t (0 : Fin 2) = t.val ∧ win7_6.index t (1 : Fin 2) = 0 :=
  (by decide +kernel : ∀ t : Fin grid7.N, _)
theorem idxZ7 : ∀ (t : Fin cfg7.N) (a : Fin 2), win7_2.index t a = 0 ∧ win7_3.index t a = 0 ∧ win7_4.index t a = 0 ∧ win7_5.index t a = 0 :=
  (by decide +kernel : ∀ (t : Fin grid7.N) (a : Fin 2), _)

/-- The specification's cell over the six arrays as the region finds them; the two bias rows are read by column. -/
abbrev out7_G (c : Dev nD) : S100000x128.Idx → EReal :=
  Cert.Spec.G (V c (Pipeline.arrRef spec7 0)) (V c (Pipeline.arrRef spec7 1)) (V c (Pipeline.arrRef spec7 2))
    (V c (Pipeline.arrRef spec7 3)) (fun q => V c (Pipeline.arrRef spec7 4) (ValueIdx.ix2 0 q))
    (fun q => V c (Pipeline.arrRef spec7 5) (ValueIdx.ix2 0 q))

/-- Row `p` of the aggregate block at point `t` is row `2000 t + p` of the aggregate array. -/
theorem iblk7_0_row (c : Dev nD) (t : Fin cfg7.N) (p : Fin 2000) (k : Fin 128) (r : Fin 100000) (hr : r.val = t.val * 2000 + p.val) :
    (iblk7 V c 0 t : S2000x128.Idx → EReal) (ix2 p k) = V c (Pipeline.arrRef spec7 0) (ix2 r k) := by
  obtain ⟨e0, e1, -⟩ := idx7_G t
  show V c (Pipeline.arrRef spec7 0) (((cfg7.win 0).blk t).view.emb (ix2 p k)) = _
  refine congrArg _ (Shape.idx_ext₂ ?_ ?_)
  · show win7_0.index t (0 : Fin 2) * 2000 + 1 * p.val = r.val; omega
  · show win7_0.index t (1 : Fin 2) * 128 + 1 * k.val = k.val; omega

/-- Row `p` of the old features' block at point `t` is row `2000 t + p` of the old features. -/
theorem iblk7_1_row (c : Dev nD) (t : Fin cfg7.N) (p : Fin 2000) (k : Fin 128) (r : Fin 100000) (hr : r.val = t.val * 2000 + p.val) :
    (iblk7 V c 1 t : S2000x128.Idx → EReal) (ix2 p k) = V c (Pipeline.arrRef spec7 1) (ix2 r k) := by
  obtain ⟨-, -, e0, e1, -⟩ := idx7_G t
  show V c (Pipeline.arrRef spec7 1) (((cfg7.win 1).blk t).view.emb (ix2 p k)) = _
  refine congrArg _ (Shape.idx_ext₂ ?_ ?_)
  · show win7_1.index t (0 : Fin 2) * 2000 + 1 * p.val = r.val; omega
  · show win7_1.index t (1 : Fin 2) * 128 + 1 * k.val = k.val; omega

/-- A weight or bias block is the whole array. -/
theorem iblk7_2_eq (c : Dev nD) (t : Fin cfg7.N) : (iblk7 V c 2 t : S384x128.Idx → EReal) = V c (Pipeline.arrRef spec7 2) :=
  funext fun z => congrArg (V c (Pipeline.arrRef spec7 2)) (funext fun a => Fin.ext (win7_2.rect_emb_val_of_index_zero t a (idxZ7 t a).1 z))
theorem iblk7_3_eq (c : Dev nD) (t : Fin cfg7.N) : (iblk7 V c 3 t : S384x128.Idx → EReal) = V c (Pipeline.arrRef spec7 3) :=
  funext fun z => congrArg (V c (Pipeline.arrRef spec7 3)) (funext fun a => Fin.ext (win7_3.rect_emb_val_of_index_zero t a (idxZ7 t a).2.1 z))
theorem iblk7_4_eq (c : Dev nD) (t : Fin cfg7.N) : (iblk7 V c 4 t : S1x384.Idx → EReal) = V c (Pipeline.arrRef spec7 4) :=
  funext fun z => congrArg (V c (Pipeline.arrRef spec7 4)) (funext fun a => Fin.ext (win7_4.rect_emb_val_of_index_zero t a (idxZ7 t a).2.2.1 z))
theorem iblk7_5_eq (c : Dev nD) (t : Fin cfg7.N) : (iblk7 V c 5 t : S1x384.Idx → EReal) = V c (Pipeline.arrRef spec7 5) :=
  funext fun z => congrArg (V c (Pipeline.arrRef spec7 5)) (funext fun a => Fin.ext (win7_5.rect_emb_val_of_index_zero t a (idxZ7 t a).2.2.2 z))

/-- Entry `(p, j)` of the output block at point `t` is entry `(2000 t + p, j)` of the array. -/
theorem idx7_emb (t : Fin cfg7.N) (p : Fin 2000) (j : Fin 128) (r : Fin 100000) (hr : r.val = t.val * 2000 + p.val) :
    (((cfg7.win 6).blk t).view.emb (ix2 p j) : S100000x128.Idx) = ix2 r j := by
  obtain ⟨-, -, -, -, e0, e1⟩ := idx7_G t
  refine Shape.idx_ext₂ ?_ ?_
  · show win7_6.index t (0 : Fin 2) * 2000 + 1 * p.val = r.val; omega
  · show win7_6.index t (1 : Fin 2) * 128 + 1 * j.val = j.val; omega

/-- Block `t` of the result is rows `2000 t …` of the specification's cell over the arrays. -/
theorem flushed7_G (c : Dev nD) (t : Fin cfg7.N) :
    (dat7 (F := Ideal) V c).flushed 6 t = ((cfg7.win 6).blk t).view.read (Elt Ideal) (out7_G V c) := by
  show (cfg7.win 6).cut (grid7.coords t) ((dat7 V c).after 6 t) = _
  rw [after7_6]
  unfold out7_6
  rw [View.canon_unit_zero hz7]
  simp only [View.ld_unit_zero (S := S2000x128) hz7, View.ld_unit_zero (S := S384x128) hz7, View.ld_unit_zero (S := S1x384) hz7]
  refine funext fun (y : S2000x128.Idx) => ?_
  obtain ⟨p, j, rfl⟩ : ∃ (p : Fin 2000) (j : Fin 128), y = ix2 p j := ⟨y 0, y 1, eq_ix2 y⟩
  have hr : t.val * 2000 + p.val < 100000 := by have := t.isLt; have h : cfg7.N = 50 := N_7; have := p.isLt; omega
  show k7_pay1 (F := Ideal) (iblk7 V c 1 t) (iblk7 V c 0 t) (iblk7 V c 2 t) (iblk7 V c 3 t) (iblk7 V c 4 t) (iblk7 V c 5 t) (ix2 p j)
      = out7_G V c (((cfg7.win 6).blk t).view.emb (ix2 p j))
  rw [iblk7_2_eq, iblk7_3_eq, iblk7_4_eq, iblk7_5_eq, idx7_emb t p j ⟨_, hr⟩ rfl]
  exact gcell7 _ _ _ _ _ _ _ _ p ⟨_, hr⟩ (fun k => iblk7_1_row V c t p k _ rfl) (fun k => iblk7_0_row V c t p k _ rfl) j

/-- Row `r` of the result is row `r % 2000` of block `r / 2000`. -/
theorem cover7_G (i : S100000x128.Idx) :
    ∃ t : Fin cfg7.N, (cfg7.win 6).flush t = true ∧ i ∈ ((cfg7.win 6).blk t).view.set := by
  have hi := idx2_lt0 i
  have hN : cfg7.N = 50 := N_7
  obtain ⟨t, ht⟩ : ∃ t : Fin cfg7.N, t.val = (i 0).val / 2000 := ⟨⟨_, by omega⟩, rfl⟩
  refine ⟨t, flush7_6 t, ?_⟩
  rw [(eq_ix2 i).trans (idx7_emb t ⟨(i 0).val % 2000, Nat.mod_lt _ (by norm_num)⟩ (i 1) (i 0) (by show _ = t.val * 2000 + (i 0).val % 2000; omega)).symm]
  exact View.emb_mem_set _ _

/-- The result array after the region is the specification's cell over the arrays as the region found them. -/
theorem arrAt7_G (c : Dev nD) :
    (dat7 (F := Ideal) V c).arrAt 6 cfg7.N
      = Cert.Spec.G (V c (Pipeline.arrRef spec7 0)) (V c (Pipeline.arrRef spec7 1)) (V c (Pipeline.arrRef spec7 2))
          (V c (Pipeline.arrRef spec7 3)) (fun q => V c (Pipeline.arrRef spec7 4) (ValueIdx.ix2 0 q))
          (fun q => V c (Pipeline.arrRef spec7 5) (ValueIdx.ix2 0 q)) :=
  (dat7 V c).arrAt_eq_of_cover 6 (out7_G V c) (fun t _ => flushed7_G V c t) cover7_G

end Cert.KernelIdeal.Hand

end
-- ==== Proof.KI.PayP.lean ====
import proofs.«402922_j42726334660740_1_alg».proof.Proof.KI.PayT
import Idealize.ShloMosaic.Lib.KernelVsHost

noncomputable section

namespace Cert.KernelIdeal.Hand

open Cert.KernelIdeal Cert.KernelIdeal.Gen
open Idealize.ShloMosaic Idealize.ShloMosaic.ValueIdx
open scoped BigOperators

/-- The reset value is zero at every index. -/
theorem k8_pay1_apply (i : S64x128.Idx) : k8_pay1 (F := Ideal) i = 0 := by
  unfold k8_pay1
  rw [shapeCast_self]
  exact Ideal.ofBits_zero_f32

/-- An equality test of two words, widened and converted, is one or zero. -/
theorem sitofp_eq_bit (a b : BitVec 32) :
    (FloatOps.sitofp .f32 ((IntOp.cmpi .eq a b).setWidth 32) : Ideal .f32) = if a = b then 1 else 0 := by
  show (((((IntOp.cmpi .eq a b).setWidth 32).toInt : ℤ) : ℝ) : EReal) = _
  rw [toInt_setWidth_bit]
  by_cases h : a = b
  · rw [if_pos h]; subst h; simp [IntOp.cmpi]
  · rw [if_neg h]; simp [IntOp.cmpi, h]

/-- The left factor at row `p`, column `g`: one where the row's graph id is the word `g`, zero elsewhere. -/
theorem onehot_apply (xb : IVec S2000x1 32) (p : Fin 2000) (g : Fin 64) :
    (truncf .bf16 (sitofp .f32 (extui 32 (cmpi .eq
        (broadcastTo S2000x64 (shapeCast S2000x1 xb shapeCasts_S2000x1_S2000x1) broadcasts_S2000x1_S2000x64)
        (iota .tc S2000x64 32 [1] iota_S2000x64_d1_w32)) natLt_1_32) : FVec Ideal S2000x64 .f32) bitsLt_bf16_f32
      : FVec Ideal S2000x64 .bf16) (ix2 p g)
      = if xb (ix2 p 0) = BitVec.ofNat 32 g.val then 1 else 0 := by
  rw [truncf_apply, sitofp_apply, extui_apply]
  show (FloatOps.sitofp .f32 ((IntOp.cmpi .eq
        (broadcastTo S2000x64 (shapeCast S2000x1 xb shapeCasts_S2000x1_S2000x1) broadcasts_S2000x1_S2000x64 (ix2 p g))
        (iota .tc S2000x64 32 [1] iota_S2000x64_d1_w32 (ix2 p g))).setWidth 32) : Ideal .f32) = _
  rw [shapeCast_self, iota_single_apply,
    broadcastTo_apply xb broadcasts_S2000x1_S2000x64 (ix2 p g) (ix2 p 0) (fun a => by
      match a with
      | ⟨0, _⟩ => rfl
      | ⟨1, _⟩ => rfl)]
  exact sitofp_eq_bit _ _

/-- The update at graph `g`, column `j`: the old entry plus, over the block's rows whose graph id is `g`, the positive part of the row's entry; the product contracts the row axis of both factors. -/
theorem k8_pay2_apply (xh : Vec Ideal S2000x128 .f32) (xb : Vec Ideal S2000x1 .i32) (acc : Vec Ideal S64x128 .f32)
    (g : Fin 64) (j : Fin 128) :
    k8_pay2 (F := Ideal) xh xb acc (ix2 g j)
      = acc (ix2 g j) + ∑ p : Fin 2000,
          (if xb (ix2 p 0) = BitVec.ofNat 32 g.val then max (xh (ix2 p j)) Cert.Spec.zero32 else 0) := by
  unfold k8_pay2
  rw [shapeCast_self, addf_apply]
  refine congrArg (acc (ix2 g j) + ·) ((mm_apply _ 2000 rfl rfl _ _ (ix2 g j) (fun p => ix2 p g) (fun p => ix2 p j)
    (fun _ => Shape.idx_ext₂ rfl rfl) (fun _ => Shape.idx_ext₂ rfl rfl)).trans (Finset.sum_congr rfl fun p _ => ?_))
  rw [onehot_apply, truncf_apply, maximumf_apply, shapeCast_self, broadcast_apply]
  by_cases h : xb (ix2 p 0) = BitVec.ofNat 32 g.val
  · rw [if_pos h, if_pos h, one_mul]; rfl
  · rw [if_neg h, if_neg h, zero_mul]

end Cert.KernelIdeal.Hand

end
-- ==== Proof.KI.SumP.lean ====
import Mathlib.Logic.Equiv.Fin.Basic
import Mathlib.Algebra.BigOperators.Fin
import Mathlib.Data.Fintype.BigOperators

namespace Cert.KernelIdeal.Hand

open scoped BigOperators

/-- A row of the array as (block, row inside the block): row `p + 2000 t` is row `p` of block `t`. -/
def rowEquiv : Fin 50 × Fin 2000 ≃ Fin 100000 := finProdFinEquiv

theorem rowEquiv_val (t : Fin 50) (p : Fin 2000) : (rowEquiv (t, p)).val = p.val + 2000 * t.val := rfl

/-- A sum over the rows is the sum over the blocks of the sums over each block's rows. -/
theorem sum_rows {M : Type*} [AddCommMonoid M] (f : Fin 100000 → M) :
    ∑ r, f r = ∑ t : Fin 50, ∑ p : Fin 2000, f (rowEquiv (t, p)) := by
  rw [← Equiv.sum_comp rowEquiv f, Fintype.sum_prod_type]

/-- A sequence that starts at `b 0` and adds `b (n + 1)` at step `n + 1` holds, after step `n`, the sum of `b` up to `n`. -/
theorem running_sum {M : Type*} [AddCommMonoid M] {N : ℕ} (b : Fin N → M) (s : (n : ℕ) → n < N → M)
    (h0 : ∀ h, s 0 h = b ⟨0, h⟩)
    (hs : ∀ (n : ℕ) (hn : n + 1 < N), s (n + 1) hn = s n (Nat.lt_of_succ_lt hn) + b ⟨n + 1, hn⟩) :
    ∀ (n : ℕ) (hn : n < N), s n hn = ∑ i : Fin (n + 1), b (i.castLE hn)
  | 0, hn => by rw [h0, Fin.sum_univ_one]; rfl
  | n + 1, hn => by rw [hs, running_sum b s h0 hs n, Fin.sum_univ_castSucc (n := n + 1)]; rfl

end Cert.KernelIdeal.Hand
-- ==== Proof.KI.ValP.lean ====
import proofs.«402922_j42726334660740_1_alg».proof.Proof.KI.Reg8
import proofs.«402922_j42726334660740_1_alg».proof.Proof.KI.PayP
import proofs.«402922_j42726334660740_1_alg».proof.Proof.KI.SumP

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The node features and the graph ids as the region finds them, and their blocks at point `t`. -/
abbrev harr (c : Dev nD) : Vec Ideal S100000x128 .f32 := V c (Pipeline.arrRef spec8 0)
abbrev barr (c : Dev nD) : Vec Ideal S100000x1 .i32 := V c (Pipeline.arrRef spec8 1)
abbrev hblk (c : Dev nD) (t : Fin cfg8.N) : Vec Ideal S2000x128 .f32 := iblk8 V c 0 t
abbrev bblk (c : Dev nD) (t : Fin cfg8.N) : Vec Ideal S2000x1 .i32 := iblk8 V c 1 t

theorem idx_facts8 : ∀ t : Fin cfg8.N, win8_0.index t (0 : Fin 2) = t.val ∧ win8_0.index t (1 : Fin 2) = 0
    ∧ win8_1.index t (0 : Fin 2) = t.val ∧ win8_1.index t (1 : Fin 2) = 0 :=
  (by decide +kernel : ∀ t : Fin grid8.N, _)
theorem idxZ8 : ∀ (t : Fin cfg8.N) (a : Fin 2), win8_2.index t a = 0 :=
  (by decide +kernel : ∀ (t : Fin grid8.N) (a : Fin 2), _)

/-- Row `p` of the feature block at point `t` is row `p + 2000 t` of the array. -/
theorem hblk_apply (c : Dev nD) (t : Fin cfg8.N) (p : Fin 2000) (j : Fin 128) (k : Fin 100000)
    (hk : k.val = p.val + 2000 * t.val) : hblk V c t (ix2 p j) = harr V c (ix2 k j) := by
  obtain ⟨e0, e1, -⟩ := idx_facts8 t
  show V c (Pipeline.arrRef spec8 0) (((cfg8.win 0).blk t).view.emb (ix2 p j)) = V c (Pipeline.arrRef spec8 0) (ix2 k j)
  refine congrArg _ (Shape.idx_ext₂ ?_ ?_)
  · show win8_0.index t (0 : Fin 2) * 2000 + 1 * p.val = k.val; omega
  · show win8_0.index t (1 : Fin 2) * 128 + 1 * j.val = j.val; omega

/-- Row `p` of the graph-id block at point `t` is row `p + 2000 t` of the array. -/
theorem bblk_apply (c : Dev nD) (t : Fin cfg8.N) (p : Fin 2000) (k : Fin 100000)
    (hk : k.val = p.val + 2000 * t.val) : bblk V c t (ix2 p 0) = barr V c (ix2 k 0) := by
  obtain ⟨-, -, e0, e1⟩ := idx_facts8 t
  show V c (Pipeline.arrRef spec8 1) (((cfg8.win 1).blk t).view.emb (ix2 p 0)) = V c (Pipeline.arrRef spec8 1) (ix2 k 0)
  refine congrArg _ (Shape.idx_ext₂ ?_ ?_)
  · show win8_1.index t (0 : Fin 2) * 2000 + 1 * p.val = k.val; omega
  · show win8_1.index t (1 : Fin 2) * 1 + 1 * 0 = 0; omega

/-- Block `t`'s contribution to graph `g`, column `j`. -/
def blockSum (c : Dev nD) (g : Fin 64) (j : Fin 128) (t : Fin 50) : EReal :=
  ∑ p : Fin 2000, if barr V c (ix2 (rowEquiv (t, p)) 0) = BitVec.ofNat 32 g.val
    then max (harr V c (ix2 (rowEquiv (t, p)) j)) Cert.Spec.zero32 else 0

/-- One update over the block at point `t` adds block `t`'s contribution. -/
theorem update_apply (c : Dev nD) (t : Fin cfg8.N) (acc : Vec Ideal S64x128 .f32) (g : Fin 64) (j : Fin 128)
    (t' : Fin 50) (ht : t'.val = t.val) :
    k8_pay2 (F := Ideal) (hblk V c t) (bblk V c t) acc (ix2 g j) = acc (ix2 g j) + blockSum V c g j t' := by
  refine (k8_pay2_apply (hblk V c t) (bblk V c t) acc g j).trans (congrArg (acc (ix2 g j) + ·) (Finset.sum_congr rfl fun p _ => ?_))
  have hk : (rowEquiv (t', p)).val = p.val + 2000 * t.val := by rw [rowEquiv_val, ht]
  rw [hblk_apply V c t p j _ hk, bblk_apply V c t p _ hk]

/-- The output block is the whole array and only the last point's is kept: the array ends holding the accumulator after the last point. -/
theorem arrAt_of_last {c : Dev nD} (dat : Dat τ (Elt Ideal) Unit ℕ (UR sig nD τ) ℕ cfg8 c)
    (G : Vec Ideal S64x128 .f32) (hafter : ∀ t : Fin cfg8.N, t.val = 49 → dat.after 2 t = G) :
    dat.arrAt 2 cfg8.N = G := by
  have hN : cfg8.N = 50 := N_8
  have h49 : 49 < cfg8.N := by omega
  have hemb : ∀ (t : Fin cfg8.N) (y : S64x128.Idx), (((cfg8.win 2).blk t).view.emb y : S64x128.Idx) = y := fun t y =>
    funext fun a => Fin.ext (win8_2.rect_emb_val_of_index_zero t a (idxZ8 t a) y)
  refine dat.arrAt_eq_of_cover 2 G (fun t hf => ?_) (fun i => ⟨⟨49, h49⟩, (flush8_2 _).mpr rfl, ?_⟩)
  · show (cfg8.win 2).cut (grid8.coords t) (dat.after 2 t) = _
    rw [hafter t (by have := (flush8_2 t).mp hf; have := t.isLt; omega)]
    refine funext fun y => ?_
    show G _ = G (((cfg8.win 2).blk t).view.emb y)
    rw [hemb]
  · rw [← hemb ⟨49, h49⟩ i]
    exact View.emb_mem_set _ _

/-- An accumulator that starts from the reset value updated over the first block and is updated over the next block at every point holds the pooled sum after the last point, block by block. -/
theorem arrAt_P_of (c : Dev nD) (dat : Dat τ (Elt Ideal) Unit ℕ (UR sig nD τ) ℕ cfg8 c)
    (outs : (n : ℕ) → n < cfg8.N → Vec Ideal S64x128 .f32 × Vec Ideal S64x128 .f32)
    (hafter : ∀ t : Fin cfg8.N, dat.after 2 t = (outs t.val t.isLt).1)
    (hz : ∀ h0 : 0 < cfg8.N, (outs 0 h0).2 = k8_pay2 (iblk8 V c 0 ⟨0, h0⟩) (iblk8 V c 1 ⟨0, h0⟩) (k8_pay1 (F := Ideal)))
    (hsucc : ∀ (n : ℕ) (hn : n + 1 < cfg8.N), (outs (n + 1) hn).2
      = k8_pay2 (iblk8 V c 0 ⟨n + 1, hn⟩) (iblk8 V c 1 ⟨n + 1, hn⟩) (outs n (Nat.lt_of_succ_lt hn)).2)
    (hlast : ∀ h : 49 < cfg8.N, (outs 49 h).1 = (outs 49 h).2) :
    dat.arrAt 2 cfg8.N
      = Cert.Spec.P (V c (Pipeline.arrRef spec8 0)) (fun r => V c (Pipeline.arrRef spec8 1) (ValueIdx.ix2 r 0)) := by
  have hN : cfg8.N = 50 := N_8
  have h49 : 49 < cfg8.N := by omega
  refine arrAt_of_last dat (Cert.Spec.P (harr V c) (fun r => barr V c (ix2 r 0))) fun t ht => ?_
  rw [hafter t]
  obtain rfl : t = ⟨49, h49⟩ := Fin.ext ht
  show (outs 49 h49).1 = _
  rw [hlast h49]
  funext i
  obtain ⟨g, j, rfl⟩ : ∃ (g : Fin 64) (j : Fin 128), i = ix2 g j := ⟨i 0, i 1, eq_ix2 i⟩
  show (outs 49 h49).2 (ix2 g j) = Cert.Spec.Pc (harr V c) (fun r => barr V c (ix2 r 0)) g j
  unfold Cert.Spec.Pc
  rw [sum_rows]
  refine running_sum (blockSum V c g j) (fun n hn => (outs n (hN ▸ hn)).2 (ix2 g j)) (fun h => ?_) (fun n hn => ?_) 49 (by norm_num)
  · show (outs 0 _).2 (ix2 g j) = blockSum V c g j ⟨0, h⟩
    rw [hz]
    exact (update_apply V c ⟨0, hN ▸ h⟩ _ g j ⟨0, h⟩ rfl).trans (by rw [k8_pay1_apply, zero_add])
  · show (outs (n + 1) _).2 (ix2 g j) = (outs n _).2 (ix2 g j) + blockSum V c g j ⟨n + 1, hn⟩
    rw [hsucc n (hN ▸ hn)]
    exact update_apply V c ⟨n + 1, hN ▸ hn⟩ _ g j ⟨n + 1, hn⟩ rfl

/-- The output array after the region is the specification's pooled sum of the node features and graph ids the region finds. -/
theorem arrAt8_P (c : Dev nD) :
    (dat8 (F := Ideal) V c).arrAt 2 cfg8.N
      = Cert.Spec.P (V c (Pipeline.arrRef spec8 0)) (fun r => V c (Pipeline.arrRef spec8 1) (ValueIdx.ix2 r 0)) :=
  arrAt_P_of V c (dat8 (F := Ideal) V c) (outsAt8 (F := Ideal) V c) (after8_2 V c) (sc8_zero V c) (sc8_succ V c) (out8_last V c)

end Cert.KernelIdeal.Hand

end
-- ==== Proof.KI.Chain.lean ====
import proofs.«402922_j42726334660740_1_alg».proof.Proof.KI.Stages
import proofs.«402922_j42726334660740_1_alg».proof.Proof.KI.Host
import proofs.«402922_j42726334660740_1_alg».proof.Proof.KI.ValT
import proofs.«402922_j42726334660740_1_alg».proof.Proof.KI.ValT2
import proofs.«402922_j42726334660740_1_alg».proof.Proof.KI.ValT4
import proofs.«402922_j42726334660740_1_alg».proof.Proof.KI.ValT6
import proofs.«402922_j42726334660740_1_alg».proof.Proof.KI.ValG
import proofs.«402922_j42726334660740_1_alg».proof.Proof.KI.ValG3
import proofs.«402922_j42726334660740_1_alg».proof.Proof.KI.ValG5
import proofs.«402922_j42726334660740_1_alg».proof.Proof.KI.ValG7
import proofs.«402922_j42726334660740_1_alg».proof.Proof.KI.ValP

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

/-- `W'` holds what `W` holds at every reference of `L`. -/
def Agree (L : List (Ref sig .tc)) (W W' : Valuation τ sig (Elt Ideal)) : Prop := ∀ r ∈ L, W' r = W r

theorem Agree.refl (L : List (Ref sig .tc)) (W : Valuation τ sig (Elt Ideal)) : Agree L W W := fun _ _ => rfl

/-- Host operations that write none of `L` keep the agreement. -/
theorem Agree.host {L Wl : List (Ref sig .tc)} {W W' : Valuation τ sig (Elt Ideal)} (h : Agree L W W')
    (ops : List (HloOp τ sig (Elt Ideal)))
    (hW : ops.Forall fun op => op.writes ⊆ (Wl.map (Proc.devRef (τ := τ) .tc)).toFinset) (hd : ∀ r ∈ L, r ∉ Wl) :
    Agree L W (StableHlo.after ops W') :=
  fun r hr => (StableHlo.after_of_writes_sub ops W' hW (hd r hr)).trans (h r hr)

/-- Replacing an array outside `L` keeps the agreement. -/
theorem Agree.update {L : List (Ref sig .tc)} {W W' : Valuation τ sig (Elt Ideal)} (h : Agree L W W') (out : Ref sig .tc)
    (o : (Proc.devRef (τ := τ) .tc out).ty.Contents (Elt Ideal)) (hd : ∀ r ∈ L, r ≠ out) :
    Agree L W (Function.update W' out o) :=
  fun r hr => (Function.update_of_ne (StableHlo.devRef_ne_of_ne (hd r hr)) _ _).trans (h r hr)

theorem brow (b : FVec Ideal S384 .f32) :
    (fun q : Fin 384 => shapeCast S1x384 b shapeCasts_S384_S1x384 (ix2 (0 : Fin 1) q)) = bcol b :=
  funext fun q => shapeCast_S384_S1x384_apply b q

theorem bcolumn (b : IVec S100000 32) :
    (fun r : Fin 100000 => shapeCast S100000x1 b shapeCasts_S100000_S100000x1 (ix2 r (0 : Fin 1))) = bnode b :=
  funext fun r => shapeCast_S100000_S100000x1_apply b r

/-- What the first stretch leaves for every later item to read. -/
abbrev constRefs : List (Ref sig .tc) :=
  [main_arg0, main_arg2, main_arg3, main_arg4, main_arg5, main_v1, main_v3, main_v4, main_v5]

variable (m : (ℓ : Loc nD τ sig) → Buf (Elt Ideal) ℓ) (c : Dev nD)

/-- One message-passing step at the launch contents of the edge table and the cell's parameters. -/
abbrev stepAt (h : FVec Ideal S100000x128 .f32) (w : FVec Ideal S128x128 .f32) : FVec Ideal S100000x128 .f32 :=
  G (MP (T h w) (E0 m c main_arg1)) h (E0 m c main_arg4) (E0 m c main_arg5) (bcol (E0 m c main_arg6)) (bcol (E0 m c main_arg7))

/-- A reference the first stretch leaves alone still holds its launch contents wherever the agreement reaches. -/
theorem argK {W : Valuation τ sig (Elt Ideal)} (hK : Agree constRefs (E1 m c) W) {r : Ref sig .tc} (hr : r ∈ constRefs)
    (h0 : r ∉ hostOps0_W) : W r = E0 m c r :=
  (hK r hr).trans (StableHlo.after_of_writes_sub hostOps0 _ hostOps0_writes h0)

theorem k2 : Agree constRefs (E1 m c) (E2 m c) := (Agree.refl _ _).update main_v8 (o2 m c) (by decide)
theorem k3 : Agree constRefs (E1 m c) (E3 m c) := (k2 m c).host hostOps1 hostOps1_writes (by decide)
theorem k4 : Agree constRefs (E1 m c) (E4 m c) := (k3 m c).update main_v19 (o4 m c) (by decide)
theorem k6 : Agree constRefs (E1 m c) (E6 m c) :=
  ((k4 m c).host hostOps2 hostOps2_writes (by decide)).update main_v22 (o6 m c) (by decide)
theorem k7 : Agree constRefs (E1 m c) (E7 m c) := (k6 m c).host hostOps3 hostOps3_writes (by decide)
theorem k8 : Agree constRefs (E1 m c) (E8 m c) := (k7 m c).update main_v33 (o8 m c) (by decide)
theorem k10 : Agree constRefs (E1 m c) (E10 m c) :=
  ((k8 m c).host hostOps4 hostOps4_writes (by decide)).update main_v36 (o10 m c) (by decide)
theorem k11 : Agree constRefs (E1 m c) (E11 m c) := (k10 m c).host hostOps5 hostOps5_writes (by decide)
theorem k12 : Agree constRefs (E1 m c) (E12 m c) := (k11 m c).update main_v47 (o12 m c) (by decide)
theorem k14 : Agree constRefs (E1 m c) (E14 m c) :=
  ((k12 m c).host hostOps6 hostOps6_writes (by decide)).update main_v50 (o14 m c) (by decide)
theorem k15 : Agree constRefs (E1 m c) (E15 m c) := (k14 m c).host hostOps7 hostOps7_writes (by decide)
theorem k16 : Agree constRefs (E1 m c) (E16 m c) := (k15 m c).update main_v61 (o16 m c) (by decide)
theorem k18 : Agree constRefs (E1 m c) (E18 m c) :=
  ((k16 m c).host hostOps8 hostOps8_writes (by decide)).update main_v63 (o18 m c) (by decide)

theorem f5 : Agree [main_v19] (E4 m c) (E5 m c) := (Agree.refl _ _).host hostOps2 hostOps2_writes (by decide)
theorem f7 : Agree [main_v19] (E4 m c) (E7 m c) :=
  ((f5 m c).update main_v22 (o6 m c) (by decide)).host hostOps3 hostOps3_writes (by decide)
theorem f9 : Agree [main_v33] (E8 m c) (E9 m c) := (Agree.refl _ _).host hostOps4 hostOps4_writes (by decide)
theorem f11 : Agree [main_v33] (E8 m c) (E11 m c) :=
  ((f9 m c).update main_v36 (o10 m c) (by decide)).host hostOps5 hostOps5_writes (by decide)
theorem f13 : Agree [main_v47] (E12 m c) (E13 m c) := (Agree.refl _ _).host hostOps6 hostOps6_writes (by decide)
theorem f15 : Agree [main_v47] (E12 m c) (E15 m c) :=
  ((f13 m c).update main_v50 (o14 m c) (by decide)).host hostOps7 hostOps7_writes (by decide)

/-- The aggregation read from any contents that agree with the first stretch's on the edge rows. -/
theorem agg {W : Valuation τ sig (Elt Ideal)} (hK : Agree constRefs (E1 m c) W) (t : FVec Ideal S100000x128 .f32) :
    MPof t (W main_v1) (W main_v3) = MP t (E0 m c main_arg1) := by
  rw [hK main_v1 (by decide), hK main_v3 (by decide), E1, host0_v1, host0_v3, MP_eq_MPof]

/-- The cell read from any contents that agree with the first stretch's on its weights and bias rows. -/
theorem cell {W : Valuation τ sig (Elt Ideal)} (hK : Agree constRefs (E1 m c) W) (mp h : FVec Ideal S100000x128 .f32) :
    G mp h (W main_arg4) (W main_arg5) (fun q => (W main_v4 : FVec Ideal S1x384 .f32) (ix2 (0 : Fin 1) q))
        (fun q => (W main_v5 : FVec Ideal S1x384 .f32) (ix2 (0 : Fin 1) q))
      = G mp h (E0 m c main_arg4) (E0 m c main_arg5) (bcol (E0 m c main_arg6)) (bcol (E0 m c main_arg7)) := by
  rw [argK m c hK (r := main_arg4) (by decide) (by decide), argK m c hK (r := main_arg5) (by decide) (by decide),
    hK main_v4 (by decide), hK main_v5 (by decide), E1, host0_v4, host0_v5, brow, brow]

/-- One message-passing step, assembled from what its four items read and what the three before the cell leave. -/
theorem stepOf {W₆ W₇ : Valuation τ sig (Elt Ideal)} (h₆ : Agree constRefs (E1 m c) W₆) (h₇ : Agree constRefs (E1 m c) W₇)
    (Wi : FVec Ideal S4x128x128 .f32 → FVec Ideal S128x128 .f32) (W₄ : Valuation τ sig (Elt Ideal))
    {h h₅ h₇' t t' mp g : FVec Ideal S100000x128 .f32} {w : FVec Ideal S128x128 .f32}
    (hg : g = G mp h₇' (W₇ main_arg4) (W₇ main_arg5) (fun q => (W₇ main_v4 : FVec Ideal S1x384 .f32) (ix2 (0 : Fin 1) q))
      (fun q => (W₇ main_v5 : FVec Ideal S1x384 .f32) (ix2 (0 : Fin 1) q)))
    (e₇ : h₇' = h) (hmp : mp = MPof t' (W₆ main_v1) (W₆ main_v3)) (et : t' = t) (ht : t = T h₅ w) (e₅ : h₅ = h)
    (hw : w = Wi (W₄ main_arg3)) (h₄ : W₄ main_arg3 = E0 m c main_arg3) :
    g = stepAt m c h (Wi (E0 m c main_arg3)) := by
  rw [hg, hmp, et, ht, hw, h₄, e₇, e₅, cell m c h₇, agg m c h₆]

theorem inv4 : (E4 m c main_v19 : FVec Ideal S100000x128 .f32) = stepAt m c (E0 m c main_arg0) (Wi0 (E0 m c main_arg3)) :=
  Eq.trans (Function.update_self ..) (stepOf m c (k2 m c) (k3 m c) Wi0 (E0 m c) (arrAt1_G (T3 m) c) (argK m c (k3 m c) (r := main_arg0) (by decide) (by decide))
    (host1_v18 (E2 m c)) (Function.update_self ..) (arrAt0_T (T1 m) c) (argK m c (Agree.refl _ _) (r := main_arg0) (by decide) (by decide)) (host0_v7 (E0 m c)) rfl)

theorem inv8 : (E8 m c main_v33 : FVec Ideal S100000x128 .f32) = stepAt m c (E4 m c main_v19) (Wi1 (E0 m c main_arg3)) :=
  Eq.trans (Function.update_self ..) (stepOf m c (k6 m c) (k7 m c) Wi1 (E4 m c) (arrAt3_G (T7 m) c) (f7 m c main_v19 (by decide))
    (host3_v32 (E6 m c)) (Function.update_self ..) (arrAt2_T (T5 m) c) (f5 m c main_v19 (by decide)) (host2_v21 (E4 m c)) (argK m c (k4 m c) (r := main_arg3) (by decide) (by decide)))

theorem inv12 : (E12 m c main_v47 : FVec Ideal S100000x128 .f32) = stepAt m c (E8 m c main_v33) (Wi2 (E0 m c main_arg3)) :=
  Eq.trans (Function.update_self ..) (stepOf m c (k10 m c) (k11 m c) Wi2 (E8 m c) (arrAt5_G (T11 m) c) (f11 m c main_v33 (by decide))
    (host5_v46 (E10 m c)) (Function.update_self ..) (arrAt4_T (T9 m) c) (f9 m c main_v33 (by decide)) (host4_v35 (E8 m c)) (argK m c (k8 m c) (r := main_arg3) (by decide) (by decide)))

theorem inv16 : (E16 m c main_v61 : FVec Ideal S100000x128 .f32) = stepAt m c (E12 m c main_v47) (Wi3 (E0 m c main_arg3)) :=
  Eq.trans (Function.update_self ..) (stepOf m c (k14 m c) (k15 m c) Wi3 (E12 m c) (arrAt7_G (T15 m) c) (f15 m c main_v47 (by decide))
    (host7_v60 (E14 m c)) (Function.update_self ..) (arrAt6_T (T13 m) c) (f13 m c main_v47 (by decide)) (host6_v49 (E12 m c)) (argK m c (k12 m c) (r := main_arg3) (by decide) (by decide)))

theorem out_value (c : Dev nD) :
    (E19 m c main_v72 : FVec Ideal S64x128 .f32)
      = Cert.Spec.Out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [E19, host9_v72, argK m c (k18 m c) (r := main_arg2) (by decide) (by decide), E18, Function.update_self,
    show o18 m c = P (E17 m c main_v61) (fun r => (E17 m c main_v62 : IVec S100000x1 32) (ix2 r (0 : Fin 1)))
      from arrAt8_P (T17 m) c,
    show E17 m c main_v61 = E16 m c main_v61 from StableHlo.after_of_writes_sub hostOps8 _ hostOps8_writes (by decide),
    E17, host8_v62, argK m c (k16 m c) (r := main_arg2) (by decide) (by decide), bcolumn, inv16, inv12, inv8, inv4]
  rfl

end Cert.KernelIdeal.Hand

end
-- ==== Proof.Ref.Keeps.lean ====
import proofs.«402922_j42726334660740_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running `l` never changes what `r` holds. -/
def Keeps (l : List (HloOp τ sig (Elt F))) (r : Ref sig .tc) : Prop :=
  ∀ V : Valuation τ sig (Elt F), after l V (Proc.devRef .tc r) = V (Proc.devRef .tc r)

theorem Keeps.of_writes {W : List (Ref sig .tc)} {l : List (HloOp τ sig (Elt F))}
    (hW : l.Forall fun op => op.writes ⊆ (W.map (Proc.devRef (τ := τ) .tc)).toFinset) {r : Ref sig .tc} (hr : r ∉ W) :
    Keeps l r :=
  fun V => after_of_writes_sub l V hW hr

theorem Keeps.append {l₁ l₂ : List (HloOp τ sig (Elt F))} {r : Ref sig .tc} (h₁ : Keeps l₁ r) (h₂ : Keeps l₂ r) :
    Keeps (l₁ ++ l₂) r :=
  fun V => by rw [after_append, h₂, h₁]

end Cert.ReferenceIdeal.Hand

end
-- ==== Proof.Ref.Writes.lean ====
import proofs.«402922_j42726334660740_1_alg».proof.Proof.Ref.Ops
import proofs.«402922_j42726334660740_1_alg».proof.Proof.Ref.Keeps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of `ops` writes only references listed in `W`. -/
abbrev WritesIn (ops : List (HloOp τ sig (Elt F))) (W : List (Ref sig .tc)) : Prop :=
  ops.Forall fun op => op.writes ⊆ (W.map (Proc.devRef (τ := τ) .tc)).toFinset

abbrev opsE_W : List (Ref sig .tc) := [main_v0, main_v1, main_v2, main_v3]
theorem opsE_writes : WritesIn (F := F) opsE opsE_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsT0_W : List (Ref sig .tc) := [main_v4, main_v5, main_v6]
theorem opsT0_writes : WritesIn (F := F) opsT0 opsT0_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsM0_W : List (Ref sig .tc) := [main_c, main_v7, main_v8, main_c_0, main_v9, main_v10, main_v11, main_v12, main_v13, main_cst, main_v14, main_v15, main_v16]
theorem opsM0_writes : WritesIn (F := F) opsM0 opsM0_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG0a_W : List (Ref sig .tc) := [main_v17, main_v18, main_v19, main_v20, main_v21, main_v22, main_v23, main_v24, main_v25, main_v26, main_v27, main_v28, main_v29, main_v30, main_v31, main_v32, main_v33, main_v34, main_v35, main_cst_1, main_v36, main_v37, main_cst_2, main_v38, main_v39, main_v40, main_v41, main_v42, main_cst_3, main_v43, main_v44, main_cst_4, main_v45, main_v46, main_v47, main_v48, main_v49, main_cst_5, main_v50, main_v51]
theorem opsG0a_writes : WritesIn (F := F) opsG0a opsG0a_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG0b_W : List (Ref sig .tc) := [main_v52, main_v53, main_v54]
theorem opsG0b_writes : WritesIn (F := F) opsG0b opsG0b_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsT1_W : List (Ref sig .tc) := [main_v55, main_v56, main_v57]
theorem opsT1_writes : WritesIn (F := F) opsT1 opsT1_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsM1_W : List (Ref sig .tc) := [main_c_6, main_v58, main_v59, main_c_7, main_v60, main_v61, main_v62, main_v63, main_v64, main_cst_8, main_v65, main_v66, main_v67]
theorem opsM1_writes : WritesIn (F := F) opsM1 opsM1_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG1a_W : List (Ref sig .tc) := [main_v68, main_v69, main_v70, main_v71, main_v72, main_v73, main_v74, main_v75, main_v76, main_v77, main_v78, main_v79, main_v80, main_v81, main_v82, main_v83, main_v84, main_v85, main_v86, main_cst_9, main_v87, main_v88, main_cst_10, main_v89, main_v90, main_v91, main_v92, main_v93, main_cst_11, main_v94, main_v95, main_cst_12, main_v96, main_v97, main_v98, main_v99, main_v100, main_cst_13, main_v101, main_v102, main_v103]
theorem opsG1a_writes : WritesIn (F := F) opsG1a opsG1a_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG1b_W : List (Ref sig .tc) := [main_v104, main_v105]
theorem opsG1b_writes : WritesIn (F := F) opsG1b opsG1b_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsT2_W : List (Ref sig .tc) := [main_v106, main_v107, main_v108]
theorem opsT2_writes : WritesIn (F := F) opsT2 opsT2_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsM2_W : List (Ref sig .tc) := [main_c_14, main_v109, main_v110, main_c_15, main_v111, main_v112, main_v113, main_v114, main_v115, main_cst_16, main_v116, main_v117, main_v118]
theorem opsM2_writes : WritesIn (F := F) opsM2 opsM2_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG2a_W : List (Ref sig .tc) := [main_v119, main_v120, main_v121, main_v122, main_v123, main_v124, main_v125, main_v126, main_v127, main_v128, main_v129, main_v130, main_v131, main_v132, main_v133, main_v134, main_v135, main_v136, main_v137, main_cst_17, main_v138, main_v139, main_cst_18, main_v140, main_v141, main_v142, main_v143, main_v144, main_cst_19, main_v145, main_v146, main_cst_20, main_v147, main_v148, main_v149, main_v150, main_v151, main_cst_21, main_v152, main_v153, main_v154, main_v155]
theorem opsG2a_writes : WritesIn (F := F) opsG2a opsG2a_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG2b_W : List (Ref sig .tc) := [main_v156]
theorem opsG2b_writes : WritesIn (F := F) opsG2b opsG2b_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsT3_W : List (Ref sig .tc) := [main_v157, main_v158, main_v159]
theorem opsT3_writes : WritesIn (F := F) opsT3 opsT3_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsM3_W : List (Ref sig .tc) := [main_c_22, main_v160, main_v161, main_c_23, main_v162, main_v163, main_v164, main_v165, main_v166, main_cst_24, main_v167, main_v168, main_v169]
theorem opsM3_writes : WritesIn (F := F) opsM3 opsM3_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsG3_W : List (Ref sig .tc) := [main_v170, main_v171, main_v172, main_v173, main_v174, main_v175, main_v176, main_v177, main_v178, main_v179, main_v180, main_v181, main_v182, main_v183, main_v184, main_v185, main_v186, main_v187, main_v188, main_cst_25, main_v189, main_v190, main_cst_26, main_v191, main_v192, main_v193, main_v194, main_v195, main_cst_27, main_v196, main_v197, main_cst_28, main_v198, main_v199, main_v200, main_v201, main_v202, main_cst_29, main_v203, main_v204, main_v205, main_v206, main_v207]
theorem opsG3_writes : WritesIn (F := F) opsG3 opsG3_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev opsTl_W : List (Ref sig .tc) := [main_call0_cst, main_call0_v0, main_v208, main_cst_30, main_v209, main_v210, main_v211, main_cst_31, main_v212, main_cst_32, main_v213, main_v214, main_v215, main_cst_33, main_v216, main_v217, main_v218, main_v219, main_v220]
theorem opsTl_writes : WritesIn (F := F) opsTl opsTl_W := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

end Cert.ReferenceIdeal.Hand

end
-- ==== Proof.Ref.PureTG.lean ====
import proofs.«402922_j42726334660740_1_alg».proof.Proof.Gen.ReferenceIdeal
import proofs.«402922_j42726334660740_1_alg».proof.Proof.Spec
import Idealize.ShloMosaic.Lib.Pipeline.Value
import Idealize.ShloMosaic.Lib.StackMember
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section Terms

variable {F : FTy → Type} [FloatOps F]

def fW0 (w : FVec F S4x128x128 .f32) : FVec F S128x128 .f32 :=
  shapeCast S128x128 (extractStridedSlice S1x128x128 ![0, 0, 0] w slices_S4x128x128_S1x128x128_0_0_0) shapeCasts_S1x128x128_S128x128
def fW1 (w : FVec F S4x128x128 .f32) : FVec F S128x128 .f32 :=
  shapeCast S128x128 (extractStridedSlice S1x128x128 ![1, 0, 0] w slices_S4x128x128_S1x128x128_1_0_0) shapeCasts_S1x128x128_S128x128
def fW2 (w : FVec F S4x128x128 .f32) : FVec F S128x128 .f32 :=
  shapeCast S128x128 (extractStridedSlice S1x128x128 ![2, 0, 0] w slices_S4x128x128_S1x128x128_2_0_0) shapeCasts_S1x128x128_S128x128
def fW3 (w : FVec F S4x128x128 .f32) : FVec F S128x128 .f32 :=
  shapeCast S128x128 (extractStridedSlice S1x128x128 ![3, 0, 0] w slices_S4x128x128_S1x128x128_3_0_0) shapeCasts_S1x128x128_S128x128

def fT (h : FVec F S100000x128 .f32) (W : FVec F S128x128 .f32) : FVec F S100000x128 .f32 :=
  Host.dotGeneral (F := F) dot_S100000x128_S128x128_S100000x128_1_0_0_1_n_n none h W

def fA (x : FVec F S100000x128 .f32) (w : FVec F S384x128 .f32) (b : FVec F S384 .f32) : FVec F S100000x384 .f32 :=
  addf (F := F)
    (Host.dotGeneral (F := F) dot_S100000x128_S128x384_S100000x384_1_0_0_1_n_n none x
      (transpose S128x384 [1, 0] w transposes_S384x128_S128x384_1_0))
    (broadcastInDim S100000x384 ![0, 1] bcast_S1x384_S100000x384_0_1 (broadcastInDim S1x384 ![1] bcast_S384_S1x384_1 b))

def fS0 (y : FVec F S100000x384 .f32) : FVec F S100000x128 .f32 :=
  extractStridedSlice S100000x128 ![0, 0] y slices_S100000x384_S100000x128_0_0
def fS1 (y : FVec F S100000x384 .f32) : FVec F S100000x128 .f32 :=
  extractStridedSlice S100000x128 ![0, 128] y slices_S100000x384_S100000x128_0_128
def fS2 (y : FVec F S100000x384 .f32) : FVec F S100000x128 .f32 :=
  extractStridedSlice S100000x128 ![0, 256] y slices_S100000x384_S100000x128_0_256

def fOne : FVec F S100000x128 .f32 :=
  broadcastInDim S100000x128 ![] bcast_S_S100000x128 (constant (F := F) S_ .f32 0x3F800000#32)

def fSig (x : FVec F S100000x128 .f32) : FVec F S100000x128 .f32 :=
  Host.divf (F := F) fOne (addf (F := F) fOne (Host.exp (F := F) (Host.negf (F := F) x)))

def fG (aggr h : FVec F S100000x128 .f32) (wih whh : FVec F S384x128 .f32) (bih bhh : FVec F S384 .f32) :
    FVec F S100000x128 .f32 :=
  addf (F := F)
    (mulf (F := F) (subf (F := F) fOne (fSig (addf (F := F) (fS1 (fA aggr wih bih)) (fS1 (fA h whh bhh)))))
      (Host.tanh (F := F)
        (addf (F := F) (fS2 (fA aggr wih bih))
          (mulf (F := F) (fSig (addf (F := F) (fS0 (fA aggr wih bih)) (fS0 (fA h whh bhh)))) (fS2 (fA h whh bhh))))))
    (mulf (F := F) (fSig (addf (F := F) (fS1 (fA aggr wih bih)) (fS1 (fA h whh bhh)))) h)

end Terms

/-- Both products are plain matrix products, whose entries the library reads as sums over the contracted coordinate. -/
theorem fT_eq (h : FVec Ideal S100000x128 .f32) (W : FVec Ideal S128x128 .f32) : fT h W = Cert.Spec.T h W :=
  funext fun i => by rw [eq_ix2 i]; exact StackMember.dotGeneral_plain_apply none h W (i 0) (i 1)

theorem dotA_apply (x : FVec Ideal S100000x128 .f32) (y : FVec Ideal S128x384 .f32) (r : Fin 100000) (q : Fin 384) :
    Host.dotGeneral (F := Ideal) dot_S100000x128_S128x384_S100000x384_1_0_0_1_n_n none x y (ix2 r q)
      = ∑ k : Fin 128, x (ix2 r k) * y (ix2 k q) :=
  StackMember.dotGeneral_plain_apply none x y r q

theorem transposeW_apply (w : FVec Ideal S384x128 .f32) (k : Fin 128) (q : Fin 384) :
    transpose S128x384 [1, 0] w transposes_S384x128_S128x384_1_0 (ix2 k q) = w (ix2 q k) :=
  transpose_apply [1, 0] w transposes_S384x128_S128x384_1_0 (ix2 k q) (ix2 q k) (fun b => match b with
    | ⟨0, _⟩ => rfl
    | ⟨1, _⟩ => rfl)

theorem bias_apply (b : FVec Ideal S384 .f32) (r : Fin 100000) (q : Fin 384) :
    broadcastInDim S100000x384 ![0, 1] bcast_S1x384_S100000x384_0_1 (broadcastInDim S1x384 ![1] bcast_S384_S1x384_1 b) (ix2 r q)
      = b (ix1 q) := by
  rw [broadcastInDim_apply _ bcast_S1x384_S100000x384_0_1 (broadcastInDim S1x384 ![1] bcast_S384_S1x384_1 b) (ix2 r q)
    (ix2 (⟨0, Nat.one_pos⟩ : Fin 1) q) (fun a => match a with
      | ⟨0, _⟩ => by show 0 = if (1 : Nat) = 1 then 0 else r.val; rw [if_pos rfl]
      | ⟨1, _⟩ => by show q.val = if (384 : Nat) = 1 then 0 else q.val; rw [if_neg (by decide)])]
  exact broadcastInDim_apply _ bcast_S384_S1x384_1 b (ix2 (⟨0, Nat.one_pos⟩ : Fin 1) q) (ix1 q) (fun a => match a with
      | ⟨0, _⟩ => by show q.val = if (384 : Nat) = 1 then 0 else q.val; rw [if_neg (by decide)])

theorem fA_apply (x : FVec Ideal S100000x128 .f32) (w : FVec Ideal S384x128 .f32) (b : FVec Ideal S384 .f32)
    (r : Fin 100000) (q : Fin 384) : fA x w b (ix2 r q) = Cert.Spec.aff x w (Cert.Spec.bcol b) r q := by
  unfold fA
  rw [addf_apply, dotA_apply, bias_apply]
  exact congrArg (· + b (ix1 q)) (Finset.sum_congr rfl fun k _ => by rw [transposeW_apply])

/-- One proof for the three blocks of gate columns: only the offset `o` differs. -/
theorem gate_apply {o : Nat} (hs : S100000x384.Slices ![0, o] S100000x128) (y : FVec Ideal S100000x384 .f32)
    (r : Fin 100000) (j : Fin 128) (g : Fin 384) (hg : g.val = o + j.val) :
    extractStridedSlice S100000x128 ![0, o] y hs (ix2 r j) = y (ix2 r g) :=
  extractStridedSlice_apply ![0, o] y hs (ix2 r j) (ix2 r g) (fun a => match a with
    | ⟨0, _⟩ => by show r.val = 0 + r.val; omega
    | ⟨1, _⟩ => hg)

theorem fS0_apply (y : FVec Ideal S100000x384 .f32) (r : Fin 100000) (j : Fin 128) : fS0 y (ix2 r j) = y (ix2 r (Cert.Spec.g0 j)) :=
  gate_apply _ y r j _ (Nat.zero_add _).symm
theorem fS1_apply (y : FVec Ideal S100000x384 .f32) (r : Fin 100000) (j : Fin 128) : fS1 y (ix2 r j) = y (ix2 r (Cert.Spec.g1 j)) :=
  gate_apply _ y r j _ rfl
theorem fS2_apply (y : FVec Ideal S100000x384 .f32) (r : Fin 100000) (j : Fin 128) : fS2 y (ix2 r j) = y (ix2 r (Cert.Spec.g2 j)) :=
  gate_apply _ y r j _ rfl

/-- The literal is the real number one, so one over one plus the exponential of the negation is the logistic function. -/
theorem fSig_apply (x : FVec Ideal S100000x128 .f32) (i : S100000x128.Idx) : fSig x i = Ideal.logistic (x i) := by
  show Ideal.div (Ideal.ofBits .f32 0x3F800000#32) (Ideal.ofBits .f32 0x3F800000#32 + Ideal.exp (-(x i))) = Ideal.div 1 (1 + Ideal.exp (-(x i)))
  rw [Ideal.ofBits_one_f32]

/-- Stated over any two maps `a`, `b`, so that the affine maps are opened only afterwards. -/
theorem cell_apply (a b : FVec Ideal S100000x384 .f32) (h : FVec Ideal S100000x128 .f32) (r : Fin 100000) (j : Fin 128) :
    addf
      (mulf (subf fOne (fSig (addf (fS1 a) (fS1 b))))
        (Host.tanh (F := Ideal) (addf (fS2 a) (mulf (fSig (addf (fS0 a) (fS0 b))) (fS2 b)))))
      (mulf (fSig (addf (fS1 a) (fS1 b))) h) (ix2 r j)
    = (Cert.Spec.one32 - Ideal.logistic (a (ix2 r (Cert.Spec.g1 j)) + b (ix2 r (Cert.Spec.g1 j))))
        * Ideal.tanh (a (ix2 r (Cert.Spec.g2 j))
            + Ideal.logistic (a (ix2 r (Cert.Spec.g0 j)) + b (ix2 r (Cert.Spec.g0 j))) * b (ix2 r (Cert.Spec.g2 j)))
      + Ideal.logistic (a (ix2 r (Cert.Spec.g1 j)) + b (ix2 r (Cert.Spec.g1 j))) * h (ix2 r j) := by
  show (Cert.Spec.one32 - fSig (addf (fS1 a) (fS1 b)) (ix2 r j))
        * Ideal.tanh (fS2 a (ix2 r j) + fSig (addf (fS0 a) (fS0 b)) (ix2 r j) * fS2 b (ix2 r j))
      + fSig (addf (fS1 a) (fS1 b)) (ix2 r j) * h (ix2 r j) = _
  rw [fSig_apply, fSig_apply, addf_apply, addf_apply, fS0_apply, fS0_apply, fS1_apply, fS1_apply, fS2_apply, fS2_apply]

theorem fG_eq (aggr h : FVec Ideal S100000x128 .f32) (wih whh : FVec Ideal S384x128 .f32) (bih bhh : FVec Ideal S384 .f32) :
    fG aggr h wih whh bih bhh = Cert.Spec.G aggr h wih whh (Cert.Spec.bcol bih) (Cert.Spec.bcol bhh) := by
  funext i
  obtain ⟨r, j, rfl⟩ : ∃ (r : Fin 100000) (j : Fin 128), i = ix2 r j := ⟨i 0, i 1, eq_ix2 i⟩
  unfold fG
  rw [cell_apply, fA_apply, fA_apply, fA_apply, fA_apply, fA_apply, fA_apply]
  rfl

end Cert.ReferenceIdeal.Hand

end
-- ==== Proof.Ref.PureMPT.lean ====
import proofs.«402922_j42726334660740_1_alg».proof.Proof.Gen.ReferenceIdeal
import proofs.«402922_j42726334660740_1_alg».proof.Proof.Spec
import Idealize.ShloMosaic.PureOps.Ideal
import Idealize.ShloMosaic.PureOps.Ideal.Laws
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo

section Terms

variable {F : FTy → Type} [FloatOps F]

def fRow0 (e : IVec S2x1600000 32) : IVec S1600000 32 :=
  shapeCast S1600000 (extractStridedSlice S1x1600000 ![0, 0] e slices_S2x1600000_S1x1600000_0_0) shapeCasts_S1x1600000_S1600000
def fRow1 (e : IVec S2x1600000 32) : IVec S1600000 32 :=
  shapeCast S1600000 (extractStridedSlice S1x1600000 ![1, 0] e slices_S2x1600000_S1x1600000_1_0) shapeCasts_S1x1600000_S1600000

def fM (m : FVec F S100000x128 .f32) (s d : IVec S1600000 32) : FVec F S100000x128 .f32 :=
  Host.scatterAdd (F := F) scatter_S100000x128_S1600000x1_S1600000x128_1_0_0_1
    (broadcastInDim S100000x128 ![] bcast_S_S100000x128 (constant (F := F) S_ .f32 0x00000000#32))
    (broadcastInDim S1600000x1 ![0] bcast_S1600000_S1600000x1_0 d)
    (Host.gather gather_S100000x128_S1600000x1_S1600000x128_1_0_n_n_0_1_1128 m
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

def fP (h : FVec F S100000x128 .f32) (b : IVec S100000 32) : FVec F S64x128 .f32 :=
  Host.scatterAdd (F := F) scatter_S64x128_S100000x1_S100000x128_1_0_0_1
    (broadcastInDim S64x128 ![] bcast_S_S64x128 (constant (F := F) S_ .f32 0x00000000#32))
    (broadcastInDim S100000x1 ![0] bcast_S100000_S100000x1_0 b)
    (maximumf (F := F) h (broadcastInDim S100000x128 ![] bcast_S_S100000x128 (constant (F := F) S_ .f32 0x00000000#32)))

def fTail (p : FVec F S64x128 .f32) (b : IVec S100000 32) : FVec F S64x128 .f32 :=
  Host.divf (F := F) p
    (broadcastInDim S64x128 ![0, 1] bcast_S64x1_S64x128_0_1
      (broadcastInDim S64x1 ![0] bcast_S64_S64x1_0
        (maximumf (F := F)
          (Host.scatterAdd (F := F) scatter_S64_S100000x1_S100000_n_0_0_1
            (broadcastInDim S64 ![] bcast_S_S64 (constant (F := F) S_ .f32 0x00000000#32))
            (broadcastInDim S100000x1 ![0] bcast_S100000_S100000x1_0 b)
            (broadcastInDim S100000 ![] bcast_S_S100000 (constant (F := F) S_ .f32 0x3F800000#32)))
          (broadcastInDim S64 ![] bcast_S_S64 (constant (F := F) S_ .f32 0x3F800000#32)))))

end Terms

/-- The same operations as the specification's over records with the same fields. -/
theorem fM_eq (m : FVec Ideal S100000x128 .f32) (e : IVec S2x1600000 32) : fM m (fRow0 e) (fRow1 e) = Cert.Spec.MP m e := rfl

theorem fTail_eq (p : FVec Ideal S64x128 .f32) (b : IVec S100000 32) : fTail p b = Cert.Spec.Tail p b := rfl

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := congrArg Fin.val (congrFun (Option.some.inj h) a)
      have h2 := (hh a).1
      simp only at h1
      omega
    · cases h
  · intro h
    rw [dif_pos (fun a => by have := h a; have := (i a).isLt; omega)]
    refine congrArg some (funext fun a => Fin.ext ?_)
    have := h a
    simp only
    omega

theorem toInt_eq_small_iff (x : BitVec 32) (g : Nat) (hg : g < 64) : x.toInt = (g : Int) ↔ x = BitVec.ofNat 32 g := by
  rw [← BitVec.toNat_inj, BitVec.toNat_ofNat, BitVec.toInt_eq_toNat_cond]
  have := x.isLt
  split <;> omega

theorem poolStart0 (b : IVec S100000 32) (j : S100000x128.Idx) :
    scatter_S64x128_S100000x1_S100000x128_1_0_0_1.start j (broadcastInDim S100000x1 ![0] bcast_S100000_S100000x1_0 b) 0
      = (b (ValueIdx.ix1 (j 0))).toInt := by
  unfold ScatterDims.start
  rw [dif_pos (show (0 : Fin 2) ∈ scatter_S64x128_S100000x1_S100000x128_1_0_0_1.scatterDimsToOperandDims from List.mem_singleton.mpr rfl)]
  refine congrArg (fun k => (b k).toInt) (funext fun a => Fin.ext ?_)
  match a with
  | ⟨0, _⟩ => rfl

theorem poolStart1 (b : IVec S100000 32) (j : S100000x128.Idx) :
    scatter_S64x128_S100000x1_S100000x128_1_0_0_1.start j (broadcastInDim S100000x1 ![0] bcast_S100000_S100000x1_0 b) 1 = 0 := by
  unfold ScatterDims.start
  rw [dif_neg (show ¬ (1 : Fin 2) ∈ scatter_S64x128_S100000x1_S100000x128_1_0_0_1.scatterDimsToOperandDims from by decide)]

theorem poolWindow0 (j : S100000x128.Idx) : scatter_S64x128_S100000x1_S100000x128_1_0_0_1.window j 0 = 0 := by
  unfold ScatterDims.window
  rw [dif_neg (show ¬ (0 : Fin 2) ∈ scatter_S64x128_S100000x1_S100000x128_1_0_0_1.sKept from by decide)]
theorem poolWindow1 (j : S100000x128.Idx) : scatter_S64x128_S100000x1_S100000x128_1_0_0_1.window j 1 = (j 1).val := by
  unfold ScatterDims.window
  rw [dif_pos (show (1 : Fin 2) ∈ scatter_S64x128_S100000x1_S100000x128_1_0_0_1.sKept from by decide)]
  rfl

theorem poolLands_iff (b : IVec S100000 32) (j : S100000x128.Idx) (i : S64x128.Idx) :
    scatter_S64x128_S100000x1_S100000x128_1_0_0_1.resultIdx? j (broadcastInDim S100000x1 ![0] bcast_S100000_S100000x1_0 b) = some i
      ↔ (b (ValueIdx.ix1 (j 0)) = BitVec.ofNat 32 (i 0).val ∧ j 1 = i 1) := by
  rw [resultIdx?_eq_some_iff, Fin.forall_fin_two, poolStart0, poolStart1, poolWindow0, poolWindow1,
    ← toInt_eq_small_iff _ _ (i 0).isLt]
  constructor
  · rintro ⟨h0, h1⟩
    exact ⟨by omega, Fin.ext (by omega)⟩
  · rintro ⟨h0, h1⟩
    exact ⟨by omega, by rw [h1]; omega⟩

/-- Of node `r`'s updates only column `c`'s can land on `(g, c)`, and it does when `r`'s id word is `g`. -/
theorem fP_apply (h : FVec Ideal S100000x128 .f32) (b : IVec S100000 32) (g : Fin 64) (c0 : Fin 128) :
    fP h b (ValueIdx.ix2 g c0)
      = ∑ r : Fin 100000, if b (ValueIdx.ix1 r) = BitVec.ofNat 32 g.val then max (h (ValueIdx.ix2 r c0)) Cert.Spec.zero32 else 0 := by
  show Ideal.hostScatterAdd scatter_S64x128_S100000x1_S100000x128_1_0_0_1 _ _ _ (ValueIdx.ix2 g c0) = _
  unfold Ideal.hostScatterAdd
  rw [show (broadcastInDim S64x128 ![] bcast_S_S64x128 (constant (F := Ideal) S_ .f32 0x00000000#32)) (ValueIdx.ix2 g c0) = (0 : EReal)
      from Ideal.ofBits_zero_f32,
    zero_add, Finset.sum_filter, ValueIdx.sum_idx2]
  refine Finset.sum_congr rfl fun r _ => ?_
  have key : ∀ c : Fin 128,
      scatter_S64x128_S100000x1_S100000x128_1_0_0_1.resultIdx? (ValueIdx.ix2 r c)
          (broadcastInDim S100000x1 ![0] bcast_S100000_S100000x1_0 b) = some (ValueIdx.ix2 g c0)
        ↔ (b (ValueIdx.ix1 r) = BitVec.ofNat 32 g.val ∧ c = c0) :=
    fun c => poolLands_iff b (ValueIdx.ix2 r c) (ValueIdx.ix2 g c0)
  by_cases hb : b (ValueIdx.ix1 r) = BitVec.ofNat 32 g.val
  · refine (Finset.sum_eq_single c0 ?_ ?_).trans ?_
    · intro c _ hc
      exact if_neg fun hh => hc ((key c).1 hh).2
    · intro hh
      exact absurd (Finset.mem_univ _) hh
    · rw [if_pos ((key c0).2 ⟨hb, rfl⟩), if_pos hb]
      rfl
  · rw [if_neg hb]
    exact Finset.sum_eq_zero fun c _ => if_neg fun hh => hb ((key c).1 hh).1

theorem fP_eq (h : FVec Ideal S100000x128 .f32) (b : IVec S100000 32) : fP h b = Cert.Spec.P h (Cert.Spec.bnode b) := by
  funext i
  rw [ValueIdx.eq_ix2 i]
  exact fP_apply h b (i 0) (i 1)

end Cert.ReferenceIdeal.Hand

end
-- ==== Proof.Ref.PureOut.lean ====
import proofs.«402922_j42726334660740_1_alg».proof.Proof.Ref.PureTG
import proofs.«402922_j42726334660740_1_alg».proof.Proof.Ref.PureMPT

noncomputable section

namespace Cert.ReferenceIdeal.Hand

open Cert.ReferenceIdeal Cert.ReferenceIdeal.Gen Idealize.ShloMosaic Idealize.ShloMosaic.TcCoe Idealize.SL.Sem Idealize.ShloMosaic.StableHlo

section Terms

variable {F : FTy → Type} [FloatOps F]

/-- A step: transform the nodes, add up along the edges, update by the cell. -/
def fStep (h : FVec F S100000x128 .f32) (W : FVec F S128x128 .f32) (s d : IVec S1600000 32)
    (wih whh : FVec F S384x128 .f32) (bih bhh : FVec F S384 .f32) : FVec F S100000x128 .f32 :=
  fG (fM (fT h W) s d) h wih whh bih bhh

/-- Four steps, one weight block each, then pooling and mean. -/
def fOut (x : FVec F S100000x128 .f32) (e : IVec S2x1600000 32) (b : IVec S100000 32) (w : FVec F S4x128x128 .f32)
    (wih whh : FVec F S384x128 .f32) (bih bhh : FVec F S384 .f32) : FVec F S64x128 .f32 :=
  fTail (fP (fStep (fStep (fStep (fStep x (fW0 w) (fRow0 e) (fRow1 e) wih whh bih bhh) (fW1 w) (fRow0 e) (fRow1 e) wih whh bih bhh)
    (fW2 w) (fRow0 e) (fRow1 e) wih whh bih bhh) (fW3 w) (fRow0 e) (fRow1 e) wih whh bih bhh) b) b

end Terms

theorem fStep_eq (h : FVec Ideal S100000x128 .f32) (W : FVec Ideal S128x128 .f32) (e : IVec S2x1600000 32)
    (wih whh : FVec Ideal S384x128 .f32) (bih bhh : FVec Ideal S384 .f32) :
    fStep h W (fRow0 e) (fRow1 e) wih whh bih bhh = Cert.Spec.Step h W e wih whh bih bhh := by
  unfold fStep Cert.Spec.Step
  rw [fT_eq, fM_eq, fG_eq]

/-- Factor by factor the specification's; the weight blocks are the same slices. -/
theorem fOut_eq (x : FVec Ideal S100000x128 .f32) (e : IVec S2x1600000 32) (b : IVec S100000 32) (w : FVec Ideal S4x128x128 .f32)
    (wih whh : FVec Ideal S384x128 .f32) (bih bhh : FVec Ideal S384 .f32) :
    fOut x e b w wih whh bih bhh = Cert.Spec.Out x e b w wih whh bih bhh := by
  unfold fOut Cert.Spec.Out
  rw [fStep_eq, fStep_eq, fStep_eq, fStep_eq, fP_eq, fTail_eq]
  rfl

end Cert.ReferenceIdeal.Hand

end
-- ==== Proof.Ref.Fold.lean ====
import proofs.«402922_j42726334660740_1_alg».proof.Proof.Ref.Writes
import proofs.«402922_j42726334660740_1_alg».proof.Proof.Ref.PureOut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local notation "ρ[" r "]" => Proc.devRef (τ := τ) Proc.tc r

/-- The line `l` keeps every reference of `R`. -/
def KeepsAll (l : List (HloOp τ sig (Elt F))) (R : List (Ref sig .tc)) : Prop := ∀ r ∈ R, Keeps l r

theorem KeepsAll.of_writes {l : List (HloOp τ sig (Elt F))} {W R : List (Ref sig .tc)} (hW : WritesIn l W)
    (h : ∀ r ∈ R, r ∉ W) : KeepsAll l R := fun r hr => Keeps.of_writes hW (h r hr)

theorem KeepsAll.append {l₁ l₂ : List (HloOp τ sig (Elt F))} {R : List (Ref sig .tc)} (h₁ : KeepsAll l₁ R)
    (h₂ : KeepsAll l₂ R) : KeepsAll (l₁ ++ l₂) R := fun r hr => (h₁ r hr).append (h₂ r hr)

/-- The arguments; with the two edge rows, all a step reads besides the node features. -/
abbrev args : List (Ref sig .tc) := [main_arg0, main_arg1, main_arg2, main_arg3, main_arg4, main_arg5, main_arg6, main_arg7]
abbrev kept : List (Ref sig .tc) := main_v1 :: main_v3 :: args

theorem opsE_args : KeepsAll (F := F) opsE args := .of_writes opsE_writes (by decide)

theorem opsS0_keeps : KeepsAll (F := F) opsS0 kept :=
  (KeepsAll.of_writes opsT0_writes (by decide)).append ((KeepsAll.of_writes opsM0_writes (by decide)).append
    ((KeepsAll.of_writes opsG0a_writes (by decide)).append (.of_writes opsG0b_writes (by decide))))
theorem opsS1_keeps : KeepsAll (F := F) opsS1 kept :=
  (KeepsAll.of_writes opsT1_writes (by decide)).append ((KeepsAll.of_writes opsM1_writes (by decide)).append
    ((KeepsAll.of_writes opsG1a_writes (by decide)).append (.of_writes opsG1b_writes (by decide))))
theorem opsS2_keeps : KeepsAll (F := F) opsS2 kept :=
  (KeepsAll.of_writes opsT2_writes (by decide)).append ((KeepsAll.of_writes opsM2_writes (by decide)).append
    ((KeepsAll.of_writes opsG2a_writes (by decide)).append (.of_writes opsG2b_writes (by decide))))
theorem opsS3_keeps : KeepsAll (F := F) opsS3 kept :=
  (KeepsAll.of_writes opsT3_writes (by decide)).append ((KeepsAll.of_writes opsM3_writes (by decide)).append
    (.of_writes opsG3_writes (by decide)))

variable (V : Valuation τ sig (Elt F))

/-- A step's function of the contents before it: the features `x`, block `W` of the stack, the edge rows, the cell's weights. -/
def stepOf (x : FVec F S100000x128 .f32) (W : FVec F S4x128x128 .f32 → FVec F S128x128 .f32) : FVec F S100000x128 .f32 :=
  fStep x (W (V ρ[main_arg3])) (V ρ[main_v1]) (V ρ[main_v3]) (V ρ[main_arg4]) (V ρ[main_arg5]) (V ρ[main_arg6]) (V ρ[main_arg7])

theorem opsE_v1 : after opsE V ρ[main_v1] = fRow0 (V ρ[main_arg1]) := by after_results_simp <;> rfl
theorem opsE_v3 : after opsE V ρ[main_v3] = fRow1 (V ρ[main_arg1]) := by after_results_simp <;> rfl

theorem opsS0_val : after opsS0 V ρ[main_v54] = stepOf V (V ρ[main_arg0]) fW0 := by
  show after (opsT0 ++ (opsM0 ++ (opsG0a ++ opsG0b))) V _ = _
  rw [after_append, after_append, after_append]
  after_results_simp <;> rfl
theorem opsS1_val : after opsS1 V ρ[main_v105] = stepOf V (V ρ[main_v54]) fW1 := by
  show after (opsT1 ++ (opsM1 ++ (opsG1a ++ opsG1b))) V _ = _
  rw [after_append, after_append, after_append]
  after_results_simp <;> rfl
theorem opsS2_val : after opsS2 V ρ[main_v156] = stepOf V (V ρ[main_v105]) fW2 := by
  show after (opsT2 ++ (opsM2 ++ (opsG2a ++ opsG2b))) V _ = _
  rw [after_append, after_append, after_append]
  after_results_simp <;> rfl
theorem opsS3_val : after opsS3 V ρ[main_v207] = stepOf V (V ρ[main_v156]) fW3 := by
  show after (opsT3 ++ (opsM3 ++ opsG3)) V _ = _
  rw [after_append, after_append]
  after_results_simp <;> rfl

theorem opsTl_val : after opsTl V ρ[main_v220] = fTail (fP (V ρ[main_v207]) (V ρ[main_arg2])) (V ρ[main_arg2]) := by
  after_results_simp <;> (try simp only [TRef.ofBuf, TRef.toBuf, cast_eq]) <;> rfl

omit V in
/-- What `V` holds at the references a step or the tail reads besides the node features. -/
structure Env (V : Valuation τ sig (Elt F)) (w : FVec F S4x128x128 .f32) (s d : IVec S1600000 32) (b : IVec S100000 32)
    (wih whh : FVec F S384x128 .f32) (bih bhh : FVec F S384 .f32) : Prop where
  w : V ρ[main_arg3] = w
  s : V ρ[main_v1] = s
  d : V ρ[main_v3] = d
  b : V ρ[main_arg2] = b
  wih : V ρ[main_arg4] = wih
  whh : V ρ[main_arg5] = whh
  bih : V ρ[main_arg6] = bih
  bhh : V ρ[main_arg7] = bhh

variable {V} {w : FVec F S4x128x128 .f32} {s d : IVec S1600000 32} {b : IVec S100000 32}
  {wih whh : FVec F S384x128 .f32} {bih bhh : FVec F S384 .f32}

theorem Env.step (h : Env V w s d b wih whh bih bhh) {l : List (HloOp τ sig (Elt F))} (hl : KeepsAll l kept) :
    Env (StableHlo.after l V) w s d b wih whh bih bhh :=
  ⟨(hl main_arg3 (by decide) V).trans h.w, (hl main_v1 (by decide) V).trans h.s, (hl main_v3 (by decide) V).trans h.d,
    (hl main_arg2 (by decide) V).trans h.b, (hl main_arg4 (by decide) V).trans h.wih, (hl main_arg5 (by decide) V).trans h.whh,
    (hl main_arg6 (by decide) V).trans h.bih, (hl main_arg7 (by decide) V).trans h.bhh⟩

/-- A line that writes at `q` a step of what `p` read, run from such contents with `x` at `p`. -/
theorem Env.val (h : Env V w s d b wih whh bih bhh) {l : List (HloOp τ sig (Elt F))}
    {p q : Valuation τ sig (Elt F) → FVec F S100000x128 .f32} {W : FVec F S4x128x128 .f32 → FVec F S128x128 .f32}
    (hl : ∀ V, q (StableHlo.after l V) = stepOf V (p V) W) {x : FVec F S100000x128 .f32} (hx : p V = x) :
    q (StableHlo.after l V) = fStep x (W w) s d wih whh bih bhh := by
  rw [hl, stepOf, hx, h.w, h.s, h.d, h.wih, h.whh, h.bih, h.bhh]

variable (V)

theorem fold_value : after ops V ρ[main_v220] =
    fOut (V ρ[main_arg0]) (V ρ[main_arg1]) (V ρ[main_arg2]) (V ρ[main_arg3]) (V ρ[main_arg4]) (V ρ[main_arg5]) (V ρ[main_arg6]) (V ρ[main_arg7]) := by
  have e0 : Env (after opsE V) (V ρ[main_arg3]) (fRow0 (V ρ[main_arg1])) (fRow1 (V ρ[main_arg1])) (V ρ[main_arg2])
      (V ρ[main_arg4]) (V ρ[main_arg5]) (V ρ[main_arg6]) (V ρ[main_arg7]) :=
    ⟨opsE_args main_arg3 (by decide) V, opsE_v1 V, opsE_v3 V, opsE_args main_arg2 (by decide) V, opsE_args main_arg4 (by decide) V,
      opsE_args main_arg5 (by decide) V, opsE_args main_arg6 (by decide) V, opsE_args main_arg7 (by decide) V⟩
  have x1 := e0.val (p := fun V => V ρ[main_arg0]) (q := fun V => V ρ[main_v54]) opsS0_val (opsE_args main_arg0 (by decide) V)
  have e1 := e0.step opsS0_keeps
  have x2 := e1.val (p := fun V => V ρ[main_v54]) (q := fun V => V ρ[main_v105]) opsS1_val x1
  have e2 := e1.step opsS1_keeps
  have x3 := e2.val (p := fun V => V ρ[main_v105]) (q := fun V => V ρ[main_v156]) opsS2_val x2
  have e3 := e2.step opsS2_keeps
  have x4 := e3.val (p := fun V => V ρ[main_v156]) (q := fun V => V ρ[main_v207]) opsS3_val x3
  have e4 := e3.step opsS3_keeps
  show after (opsE ++ (opsS0 ++ (opsS1 ++ (opsS2 ++ (opsS3 ++ opsTl))))) V _ = _
  rw [after_append, after_append, after_append, after_append, after_append, opsTl_val, x4, e4.b]
  rfl

omit V in
/-- The arguments lie outside every piece's write list. -/
theorem fold_arg : KeepsAll (F := F) ops args :=
  opsE_args.append fun r hr =>
    (opsS0_keeps.append (opsS1_keeps.append (opsS2_keeps.append (opsS3_keeps.append (.of_writes opsTl_writes (by decide))))))
      r (List.mem_cons_of_mem _ (List.mem_cons_of_mem _ hr))

end Cert.ReferenceIdeal.Hand

end
-- ==== Proof.Ref.Final.lean ====
import proofs.«402922_j42726334660740_1_alg».proof.Proof.Ref.Run
import proofs.«402922_j42726334660740_1_alg».proof.Proof.Ref.Fold

noncomputable section

namespace Cert.ReferenceIdeal.Hand

open Cert.ReferenceIdeal Cert.ReferenceIdeal.Gen Idealize.ShloMosaic Idealize.ShloMosaic.TcCoe Idealize.SL.Sem Idealize.ShloMosaic.StableHlo

/-- The run's end state is the fold, which leaves the arguments alone. -/
theorem frame_ref {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun r h c =>
      have k : ∀ a ∈ args, r.2.mem ((c.tc : Thread nD τ).loc a) = m ((c.tc : Thread nD τ).loc a) :=
        fun a ha => (h c a).trans (fold_arg (F := F) a ha fun b => m (c, b))
      ⟨k main_arg0 (by decide), k main_arg1 (by decide), k main_arg2 (by decide), k main_arg3 (by decide),
        k main_arg4 (by decide), k main_arg5 (by decide), k main_arg6 (by decide), k main_arg7 (by decide)⟩)
    (run_fold m ρ)

/-- The fold's result is `fOut` of the arguments for any floats; at the extended reals `fOut` is the specification. -/
theorem value_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v220)
          = Cert.Spec.Out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun r h c =>
      have k : ∀ a ∈ args, r.2.mem ((c.tc : Thread nD τ).loc a) = m ((c.tc : Thread nD τ).loc a) :=
        fun a ha => (h c a).trans (fold_arg (F := Ideal) a ha fun b => m (c, b))
      ⟨((h c main_v220).trans (fold_value fun b => m (c, b))).trans (fOut_eq _ _ _ _ _ _ _ _),
        k main_arg0 (by decide), k main_arg1 (by decide), k main_arg2 (by decide), k main_arg3 (by decide),
        k main_arg4 (by decide), k main_arg5 (by decide), k main_arg6 (by decide), k main_arg7 (by decide)⟩)
    (run_fold m ρ)

end Cert.ReferenceIdeal.Hand

end
-- ==== Proof.lean ====
/-
  Four rounds of message passing with a gated recurrent update, then a per-graph mean of the positive parts: computed
  block of rows by block of rows on one side and with whole-array operations on the other. Over the extended reals both
  are the one function `Cert.Spec.Out` of the eight arguments: a product taken row block by row block is the product,
  and a sum carried over the row blocks is the sum, by commutativity and associativity of addition alone.
-/
import proofs.«402922_j42726334660740_1_alg».proof.Defs
import proofs.«402922_j42726334660740_1_alg».proof.Proof.Gen.Kernel
import proofs.«402922_j42726334660740_1_alg».proof.Proof.Gen.KernelIdeal
import proofs.«402922_j42726334660740_1_alg».proof.Proof.Gen.ReferenceIdeal
import proofs.«402922_j42726334660740_1_alg».proof.Proof.Gen.Pre_finite_inputs
import proofs.«402922_j42726334660740_1_alg».proof.Proof.K.Run
import proofs.«402922_j42726334660740_1_alg».proof.Proof.KI.Run
import proofs.«402922_j42726334660740_1_alg».proof.Proof.KI.Chain
import proofs.«402922_j42726334660740_1_alg».proof.Proof.Ref.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ =>
  (θ_run _ _ _).mono (fun _ h c => (h c).2) (Cert.KernelIdeal.Hand.run_value m ρ)

theorem frame_r : Cert.frame_ReferenceIdeal := fun m ρ _ => Cert.ReferenceIdeal.Hand.frame_ref m ρ

theorem preserves : Cert.preserves_Kernel_KernelIdeal := trivial

/-- Both runs end with the result at `Cert.Spec.Out` of arguments that agree. -/
theorem algebraic : Cert.algebraic_KernelIdeal_ReferenceIdeal := by
  intro m ρ m' ρ' _ hagree
  refine ⟨fun c => Cert.Spec.Out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run _ _ _).mono (fun r h c => ⟨(h c).1.trans (Cert.KernelIdeal.Hand.out_value m c), (h c).2⟩)
      (Cert.KernelIdeal.Hand.run_value m ρ)
  · refine (θ_run _ _ _).mono (fun r h c => ⟨?_, (h c).2⟩) (Cert.ReferenceIdeal.Hand.value_ref m' ρ')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
